-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S4096 : Shape := ⟨1, ![4096]⟩
abbrev S4096x1024 : Shape := ⟨2, ![4096, 1024]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x32000 .f32) (main_arg1 : IVec S4096 32) (main_arg2 : FVec F S4096x1024 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x1024 .f32 := Host.absf main_arg2
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg1 main_v9
  let main_c_3 : IVec S_ 32 := constantI S_ 32 32000#32
  let main_v11 : IVec S4096 32 := broadcastInDim S4096 ![] bcast_S_S4096 main_c_3
  let main_v12 : IVec S4096 1 := cmpi .slt main_arg1 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  main_v15
-- ==== Kernel.lean ====
abbrev S4096x32000 : Shape := ⟨2, ![4096, 32000]⟩
abbrev S4096 : Shape := ⟨1, ![4096]⟩
abbrev S4096x1024 : Shape := ⟨2, ![4096, 1024]⟩
abbrev S4096x1 : Shape := ⟨2, ![4096, 1]⟩
abbrev S256x1 : Shape := ⟨2, ![256, 1]⟩
abbrev S256x6400 : Shape := ⟨2, ![256, 6400]⟩
abbrev S256 : Shape := ⟨1, ![256]⟩
abbrev S_ : Shape := ⟨0, ![]⟩
abbrev S1x4096 : Shape := ⟨2, ![1, 4096]⟩
abbrev S512x1024 : Shape := ⟨2, ![512, 1024]⟩
abbrev S512x1 : Shape := ⟨2, ![512, 1]⟩
abbrev S1x512 : Shape := ⟨2, ![1, 512]⟩
abbrev S1024x512 : Shape := ⟨2, ![1024, 512]⟩
abbrev S512x512 : Shape := ⟨2, ![512, 512]⟩
abbrev S512 : Shape := ⟨1, ![512]⟩

abbrev nBuf : Space → Nat
  | .hbm => 24
  | .vmem => 19
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1024, .f32⟩
  | .hbm, ⟨3, _⟩ => ⟨S4096x1, .i32⟩
  | .hbm, ⟨4, _⟩ => ⟨S4096x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S4096x1, .f32⟩
  | .hbm, ⟨14, _⟩ => ⟨S1x4096, .f32⟩
  | .hbm, ⟨15, _⟩ => ⟨S4096x1024, .bf16⟩
  | .hbm, ⟨16, _⟩ => ⟨S4096x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S256x1, .i32⟩
  | .local _ .vmem, ⟨1, _⟩ => ⟨S256x1, .i32⟩
  | .local _ .vmem, ⟨2, _⟩ => ⟨S256x6400, .f32⟩
  | .local _ .vmem, ⟨3, _⟩ => ⟨S256x6400, .f32⟩
  | .local _ .vmem, ⟨4, _⟩ => ⟨S256x1, .f32⟩
  | .local _ .vmem, ⟨5, _⟩ => ⟨S256x1, .f32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S512x1024, .bf16⟩
  | .local _ .vmem, ⟨10, _⟩ => ⟨S512x1024, .bf16⟩
  | .local _ .vmem, ⟨11, _⟩ => ⟨S4096x1024, .bf16⟩
  | .local _ .vmem, ⟨12, _⟩ => ⟨S512x1, .f32⟩
  | .local _ .vmem, ⟨13, _⟩ => ⟨S512x1, .f32⟩
  | .local _ .vmem, ⟨14, _⟩ => ⟨S1x512, .f32⟩
  | .local _ .vmem, ⟨15, _⟩ => ⟨S1x512, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_cst_4 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨2, ![16, 5], ![false, false]⟩

def k0_cond2 (i : grid0.Coords) : BitVec 1 :=
  let arg1 : BitVec 32 := BitVec.ofNat 32 (i 1).val
  let c4_i32 : BitVec 32 := 4#32
  let v42 : BitVec 1 := Scalar.cmpi .eq arg1 c4_i32
  let v43 : BitVec 32 := Scalar.extui v42
  let c0_i32_21 : BitVec 32 := 0#32
  let v44 : BitVec 1 := Scalar.cmpi .ne v43 c0_i32_21
  v44

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 8], ![false, false]⟩

def k1_mult1 (i : grid1.Coords) : BitVec 32 :=
  let arg1 : BitVec 32 := BitVec.ofNat 32 (i 1).val
  let c512_i32 : BitVec 32 := 512#32
  let v5 : BitVec 32 := Scalar.muli arg1 c512_i32
  v5
def k1_off1 (i : grid1.Coords) : Fin 2 → Nat :=
  let arg1 : BitVec 32 := BitVec.ofNat 32 (i 1).val
  let c512_i32 : BitVec 32 := 512#32
  let v5 : BitVec 32 := Scalar.muli arg1 c512_i32
  let v6 : BitVec 32 := v5
  let v7 : Index := Scalar.indexCast v6
  let c0_2 : Index := 0#32
  ![v7.toNat, 0]
def k1_cond4 (i : grid1.Coords) : BitVec 1 :=
  let arg1 : BitVec 32 := BitVec.ofNat 32 (i 1).val
  let c7_i32 : BitVec 32 := 7#32
  let v32 : BitVec 1 := Scalar.cmpi .eq arg1 c7_i32
  let v33 : BitVec 32 := Scalar.extui v32
  let c0_i32_12 : BitVec 32 := 0#32
  let v34 : BitVec 1 := Scalar.cmpi .ne v33 c0_i32_12
  v34

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S4096x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S4096_S4096x1 : S4096.ShapeCasts S4096x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x6400_S256x6400_0_0 : ∀ a, (![0, 0] : Fin 2 → Nat) a + S256x6400.size a ≤ S256x6400.size a
  h_S256x6400 : 0 < S256x6400.numel
  iota_S256x6400_d1_w32 : S256x6400.Iotas .tc 32 [1]
  broadcasts_S256x1_S256x6400 : S256x1.Broadcasts S256x6400
  reduces_S256x6400_S256 : S256x6400.Reduces [1] S256
  shapeCasts_S256_S256x1 : S256.ShapeCasts S256x1
  reducesTo_S4096x1_S_d0_1 : S4096x1.ReducesTo [0, 1] S_
  h_S_ : 0 < S_.numel
  reducesTo_S4096x1024_S4096_d1 : S4096x1024.ReducesTo [1] S4096
  bcast_S4096_S4096x1_0 : S4096.BroadcastsInDim S4096x1 (![0] : Fin 1 → Fin S4096x1.rank)
  shapeCasts_S4096x1_S1x4096 : S4096x1.ShapeCasts S1x4096
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S512x1024_p1_0_S1024x512 : S512x1024.Transposes [1, 0] S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  dot_S512x1024_S1024x512_S512x512_1_0_0_1_n_n_wf : DotDims.WF S512x1024 S1024x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S4096x1.size a
  hwx0_0 : ∀ i : grid0.Coords, EltTy.bits .i32 = 32 ∨ (Rect.block (s := S4096x1) S256x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x6400.size a ≤ S4096x32000.size a
  hwx0_1 : ∀ i : grid0.Coords, EltTy.bits .f32 = 32 ∨ (Rect.block (s := S4096x32000) S256x6400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .f32 = 32 ∨ (Rect.block (s := S4096x1) S256x1.size (cc0_transform_2 i) (hinb0_2 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x1024.size a ≤ S4096x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x1024.size a
  hwx1_1 : ∀ i : grid1.Coords, EltTy.bits .bf16 = 32 ∨ (Rect.block (s := S4096x1024) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x4096.size a
  hwx1_3 : ∀ i : grid1.Coords, EltTy.bits .f32 = 32 ∨ (Rect.block (s := S1x4096) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf

abbrev win0_0 : Pipeline.Window sig grid0 :=
  Pipeline.Window.ofSpec (Memref.whole main_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x6400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S256x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v9) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S4096x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S512x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond4 i == 1#1) | ⟨_ + 5, h⟩ => absurd h (Nat.not_lt.2 (Nat.le_add_left _ _))

class Facts : Prop extends Facts₀ where

variable [Facts]
-- ==== ReferenceIdeal.lean ====
abbrev S4096x32000 : Shape := ⟨2, ![4096, 32000]⟩
abbrev S4096 : Shape := ⟨1, ![4096]⟩
abbrev S4096x1024 : Shape := ⟨2, ![4096, 1024]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1024x4096 : Shape := ⟨2, ![1024, 4096]⟩
abbrev S4096x4096 : Shape := ⟨2, ![4096, 4096]⟩
abbrev S1x4096 : Shape := ⟨2, ![1, 4096]⟩

abbrev nBuf : Space → Nat
  | .hbm => 86
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096, .i32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S_, .f32⟩
  | .hbm, ⟨6, _⟩ => ⟨S4096, .f32⟩
  | .hbm, ⟨7, _⟩ => ⟨S4096, .f32⟩
  | .hbm, ⟨8, _⟩ => ⟨S4096x1, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S4096x1, .f32⟩
  | .hbm, ⟨16, _⟩ => ⟨S4096x32000, .f32⟩
  | .hbm, ⟨17, _⟩ => ⟨S4096x32000, .f32⟩
  | .hbm, ⟨18, _⟩ => ⟨S4096x1, .i32⟩
  | .hbm, ⟨19, _⟩ => ⟨S_, .i32⟩
  | .hbm, ⟨20, _⟩ => ⟨S4096x1, .i32⟩
  | .hbm, ⟨21, _⟩ => ⟨S4096x1, .i1⟩
  | .hbm, ⟨22, _⟩ => ⟨S_, .i32⟩
  | .hbm, ⟨23, _⟩ => ⟨S4096x1, .i32⟩
  | .hbm, ⟨24, _⟩ => ⟨S4096x1, .i32⟩
  | .hbm, ⟨25, _⟩ => ⟨S4096x1, .i32⟩
  | .hbm, ⟨26, _⟩ => ⟨S4096x1x1, .i32⟩
  | .hbm, ⟨27, _⟩ => ⟨S1, .i32⟩
  | .hbm, ⟨28, _⟩ => ⟨S_, .i32⟩
  | .hbm, ⟨29, _⟩ => ⟨S4096x1x1, .i32⟩
  | .hbm, ⟨30, _⟩ => ⟨S4096x1x1, .i1⟩
  | .hbm, ⟨31, _⟩ => ⟨S1x1x1, .i32⟩
  | .hbm, ⟨32, _⟩ => ⟨S4096x1x1, .i32⟩
  | .hbm, ⟨33, _⟩ => ⟨S4096x1x1, .i1⟩
  | .hbm, ⟨34, _⟩ => ⟨S4096x1x1, .i1⟩
  | .hbm, ⟨35, _⟩ => ⟨S_, .i1⟩
  | .hbm, ⟨36, _⟩ => ⟨S4096x1, .i1⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096, .f32⟩
  | .hbm, ⟨51, _⟩ => ⟨S1024x4096, .f32⟩
  | .hbm, ⟨52, _⟩ => ⟨S4096x4096, .f32⟩
  | .hbm, ⟨53, _⟩ => ⟨S4096x1, .f32⟩
  | .hbm, ⟨54, _⟩ => ⟨S1x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S4096x4096, .f32⟩
  | .hbm, ⟨60, _⟩ => ⟨S4096x4096, .f32⟩
  | .hbm, ⟨61, _⟩ => ⟨S4096x4096, .f32⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .i32⟩
  | .hbm, ⟨69, _⟩ => ⟨S4096x4096, .i32⟩
  | .hbm, ⟨70, _⟩ => ⟨S_, .i32⟩
  | .hbm, ⟨71, _⟩ => ⟨S4096x4096, .i32⟩
  | .hbm, ⟨72, _⟩ => ⟨S4096x4096, .i32⟩
  | .hbm, ⟨73, _⟩ => ⟨S4096x4096, .i1⟩
  | .hbm, ⟨74, _⟩ => ⟨S4096x4096, .f32⟩
  | .hbm, ⟨75, _⟩ => ⟨S_, .f32⟩
  | .hbm, ⟨76, _⟩ => ⟨S4096x4096, .f32⟩
  | .hbm, ⟨77, _⟩ => ⟨S4096x4096, .f32⟩
  | .hbm, ⟨78, _⟩ => ⟨S4096x4096, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_cst : Ref sig .tc := ⟨.hbm, 42, rfl⟩
abbrev main_v4 : Ref sig .tc := ⟨.hbm, 43, rfl⟩
abbrev main_cst_0 : Ref sig .tc := ⟨.hbm, 44, rfl⟩
abbrev main_v5 : Ref sig .tc := ⟨.hbm, 45, rfl⟩
abbrev main_v6 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_v11 : Ref sig .tc := ⟨.hbm, 54, rfl⟩
abbrev main_v12 : Ref sig .tc := ⟨.hbm, 55, rfl⟩
abbrev main_v13 : Ref sig .tc := ⟨.hbm, 56, rfl⟩
abbrev main_v14 : Ref sig .tc := ⟨.hbm, 57, rfl⟩
abbrev main_cst_1 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_2 : Ref sig .tc := ⟨.hbm, 62, rfl⟩
abbrev main_v18 : Ref sig .tc := ⟨.hbm, 63, rfl⟩
abbrev main_v19 : Ref sig .tc := ⟨.hbm, 64, rfl⟩
abbrev main_cst_3 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_c : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_cst_4 : Ref sig .tc := ⟨.hbm, 75, rfl⟩
abbrev main_v28 : Ref sig .tc := ⟨.hbm, 76, rfl⟩
abbrev main_v29 : Ref sig .tc := ⟨.hbm, 77, rfl⟩
abbrev main_v30 : Ref sig .tc := ⟨.hbm, 78, rfl⟩
abbrev main_cst_5 : Ref sig .tc := ⟨.hbm, 79, rfl⟩
abbrev main_v31 : Ref sig .tc := ⟨.hbm, 80, rfl⟩
abbrev main_cst_6 : Ref sig .tc := ⟨.hbm, 81, rfl⟩
abbrev main_v32 : Ref sig .tc := ⟨.hbm, 82, rfl⟩
abbrev main_cst_7 : Ref sig .tc := ⟨.hbm, 83, rfl⟩
abbrev main_v33 : Ref sig .tc := ⟨.hbm, 84, rfl⟩
abbrev main_v34 : Ref sig .tc := ⟨.hbm, 85, rfl⟩

abbrev nD : Nat := 1
abbrev τ : Topo := Topo.v7x

variable {F : FTy → Type} [FloatOps F]

class Facts₀ : Prop where
  reducesTo_S4096x32000_S4096_d1 : S4096x32000.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  reducesTo_S4096x1024_S4096_d1 : S4096x1024.ReducesTo [1] S4096
  transposes_S4096x1024_S1024x4096_1_0 : S4096x1024.Transposes [1, 0] S1024x4096
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S_d0_1 : S4096x4096.ReducesTo [0, 1] S_
  gather_S4096x32000_S4096x1x1_S4096x1_n_1_0_0_1_2_11_wf : GatherDims.WF S4096x32000 S4096x1x1 S4096x1 [] [1] [0] [1] [0] 2 ![1, 1]
  dot_S4096x1024_S1024x4096_S4096x4096_1_0_0_1_n_n_wf : DotDims.WF S4096x1024 S1024x4096 S4096x4096 [1] [0] [0] [1] [] []

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.R0Data.lean ====
import proofs.«431482_j82446192214711_2_alg».proof.Proof.Gen.KernelIdeal.Launch
import proofs.«431482_j82446192214711_2_alg».proof.Proof.Gen.KernelIdeal.Skeleton
import proofs.«431482_j82446192214711_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Per row of a 256-row tile: the running maximum, the running sum of exponentials against it, the running picked logit. -/
abbrev St0 (F : FTy → Type) [FloatOps F] : Type := Vec F S256x1 .f32 × Vec F S256x1 .f32 × Vec F S256x1 .f32

/-- (-inf, 0, 0). -/
def init0 : St0 F := (k0_pay4, k0_pay5, k0_pay6)

/-- One column tile folded into the three columns. -/
def step0 (i : grid0.Coords) (lab : Vec F S256x1 .i32) (x : Vec F S256x6400 .f32) (s : St0 F) : St0 F :=
  (k0_pay2 (k0_pay8 x s.1), k0_pay1 (k0_pay9 x s.1 s.2.1 s.1) (k0_pay10 x s.1), k0_pay7 i x lab s.2.2)

/-- The columns after point n = 5 * ni + ci: restarted at ci = 0, stepped at every point. -/
def st0 (c : Dev nD) : (n : ℕ) → n < cfg0.N → St0 F
  | 0, hn => step0 (grid0.coords ⟨0, hn⟩) (iblk0 V c 0 ⟨0, hn⟩) (iblk0 V c 1 ⟨0, hn⟩) init0
  | n + 1, hn => step0 (grid0.coords ⟨n + 1, hn⟩) (iblk0 V c 0 ⟨n + 1, hn⟩) (iblk0 V c 1 ⟨n + 1, hn⟩)
      (if (n + 1) % 5 = 0 then init0 else st0 c n (Nat.lt_of_succ_lt hn))

theorem st0_succ (c : Dev nD) (n : ℕ) (hn : n + 1 < cfg0.N) :
    st0 V c (n + 1) hn = step0 (grid0.coords ⟨n + 1, hn⟩) (iblk0 V c 0 ⟨n + 1, hn⟩) (iblk0 V c 1 ⟨n + 1, hn⟩)
      (if (n + 1) % 5 = 0 then init0 else st0 V c n (Nat.lt_of_succ_lt hn)) := rfl

def prev0 (c : Dev nD) (t : Fin cfg0.N) : St0 F :=
  if h : t.val % 5 = 0 then init0 else st0 V c (t.val - 1) (Nat.lt_of_le_of_lt (Nat.sub_le _ _) t.isLt)

theorem st0_eq_step (c : Dev nD) (t : Fin cfg0.N) :
    st0 V c t.val t.isLt = step0 (grid0.coords t) (iblk0 V c 0 t) (iblk0 V c 1 t) (prev0 V c t) := by
  obtain ⟨n, hn⟩ := t
  cases n with
  | zero => simp only [prev0, Nat.zero_mod, dite_true]; rfl
  | succ n =>
    rw [st0_succ]; unfold prev0
    by_cases h : (n + 1) % 5 = 0
    · simp only [h, if_true, dite_true]
    · simp only [h, if_false, dite_false, Nat.add_sub_cancel]

/-- (max + log sum) - picked of the columns after point t: the cross entropy of the tile's rows when ci = 4. -/
def out0 (c : Dev nD) (t : Fin cfg0.N) : Vec F S256x1 .f32 :=
  k0_pay3 (st0 V c t.val t.isLt).1 (st0 V c t.val t.isLt).2.1 (st0 V c t.val t.isLt).2.2

abbrev scM0_0 : Memref sig .tc .vmem S256x1 .f32 := Memref.whole cc0_scratch0
abbrev scM0_1 : Memref sig .tc .vmem S256x1 .f32 := Memref.whole cc0_scratch1
abbrev scM0_2 : Memref sig .tc .vmem S256x1 .f32 := Memref.whole cc0_scratch2

def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant: before the first point what the launch hands over, afterwards the three columns at `st0` of the point before. -/
def PhiS0 (c : Dev nD) : (n : ℕ) → n ≤ cfg0.N → sProp 𝕄
  | 0, _ => Pipeline.ΦA spec0 c
  | n + 1, hn => iprop(owns (c : Thread nD τ) scM0_0 fullShare (st0 V c n hn).1 ∗ owns (c : Thread nD τ) scM0_1 fullShare (st0 V c n hn).2.1
      ∗ owns (c : Thread nD τ) scM0_2 fullShare (st0 V c n hn).2.2 ∗ others0 c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

end Cert.KernelIdeal.Hand

end
-- ==== Proof.R1Data.lean ====
import proofs.«431482_j82446192214711_2_alg».proof.Proof.Gen.KernelIdeal.Launch
import proofs.«431482_j82446192214711_2_alg».proof.Proof.Gen.KernelIdeal.Skeleton
import proofs.«431482_j82446192214711_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 512 feature rows from row 512 * j. -/
abbrev rj1 (i : grid1.Coords) : Rect S4096x1024 := Rect.unit (s := S4096x1024) (k1_off1 i) S512x1024.size (k1_off1_inb i)

/-- One tile's row sums of hinges added to the column, the diagonal entries left out on the diagonal tile. -/
def step1 (i : grid1.Coords) (xi : Vec F S512x1024 .bf16) (xall : Vec F S4096x1024 .bf16) (ni : Vec F S512x1 .f32)
    (nj : Vec F S1x512 .f32) (a : Vec F S512x1 .f32) : Vec F S512x1 .f32 :=
  if (i 0).val = (i 1).val then k1_pay3 i xi (View.ld xall (rj1 i)) ni nj a
  else k1_pay4 xi (View.ld xall (rj1 i)) ni nj a

/-- The column after point n = 8 * i + j: restarted from zero at j = 0, stepped at every point. -/
def acc1 (c : Dev nD) : (n : ℕ) → n < cfg1.N → Vec F S512x1 .f32
  | 0, hn => step1 (grid1.coords ⟨0, hn⟩) (iblk1 V c 0 ⟨0, hn⟩) (iblk1 V c 1 ⟨0, hn⟩) (iblk1 V c 2 ⟨0, hn⟩) (iblk1 V c 3 ⟨0, hn⟩) k1_pay1
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 8 = 0 then k1_pay1 else acc1 c n (Nat.lt_of_succ_lt hn))

theorem acc1_succ (c : Dev nD) (n : ℕ) (hn : n + 1 < cfg1.N) :
    acc1 V c (n + 1) hn = step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 8 = 0 then k1_pay1 else acc1 V c n (Nat.lt_of_succ_lt hn)) := rfl

def prev1 (c : Dev nD) (t : Fin cfg1.N) : Vec F S512x1 .f32 :=
  if h : t.val % 8 = 0 then k1_pay1 else acc1 V c (t.val - 1) (Nat.lt_of_le_of_lt (Nat.sub_le _ _) t.isLt)

theorem acc1_eq_step (c : Dev nD) (t : Fin cfg1.N) :
    acc1 V c t.val t.isLt = step1 (grid1.coords t) (iblk1 V c 0 t) (iblk1 V c 1 t) (iblk1 V c 2 t) (iblk1 V c 3 t) (prev1 V c t) := by
  obtain ⟨n, hn⟩ := t
  cases n with
  | zero => simp only [prev1, Nat.zero_mod, dite_true]; rfl
  | succ n =>
    rw [acc1_succ]; unfold prev1
    by_cases h : (n + 1) % 8 = 0
    · simp only [h, if_true, dite_true]
    · simp only [h, if_false, dite_false]; rfl

def out1 (c : Dev nD) (t : Fin cfg1.N) : Vec F S512x1 .f32 := acc1 V c t.val t.isLt

abbrev scM1_0 : Memref sig .tc .vmem S512x1 .f32 := Memref.whole cc1_scratch0

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The invariant: before the first point what the launch hands over, afterwards the column at `acc1` of the point before. -/
def PhiS1 (c : Dev nD) : (n : ℕ) → n ≤ cfg1.N → sProp 𝕄
  | 0, _ => Pipeline.ΦA spec1 c
  | n + 1, hn => iprop(owns (c : Thread nD τ) scM1_0 fullShare (acc1 V c n hn) ∗ others1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.KernelIdeal.Hand

end
-- ==== Proof.Vals.lean ====
import proofs.«431482_j82446192214711_2_alg».proof.Proof.R0Data
import proofs.«431482_j82446192214711_2_alg».proof.Proof.R1Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! Core c's buffers between the five items of @main, from the launch memory m: `ce` is the column region 0 leaves,
    `hg` the column region 1 leaves. -/

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def ce (c : Dev nD) : Buf (Elt F) ((c : Thread nD τ).loc main_v1) := (dat0 (V1 m) c).arrAt 2 cfg0.N

abbrev W2 (c : Dev nD) : Valuation τ sig (Elt F) := Function.update (W1 m c) main_v1 (ce m c)

abbrev W3 (c : Dev nD) : Valuation τ sig (Elt F) := StableHlo.after hostOps1 (W2 m c)
abbrev V3 : (c : Dev nD) → (b : Ref sig .tc) → Buf (Elt F) ((c : Thread nD τ).loc b) := fun c b => W3 m c b

def hg (c : Dev nD) : Buf (Elt F) ((c : Thread nD τ).loc main_v10) := (dat1 (V3 m) c).arrAt 4 cfg1.N

abbrev W4 (c : Dev nD) : Valuation τ sig (Elt F) := Function.update (W3 m c) main_v10 (hg m c)

abbrev W5 (c : Dev nD) : Valuation τ sig (Elt F) := StableHlo.after hostOps2 (W4 m c)

end Cert.KernelIdeal.Hand

end
-- ==== Proof.R0Runs.lean ====
import proofs.«431482_j82446192214711_2_alg».proof.Proof.R0Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2_0 : (![0, 0] : Fin 2 → Nat) = fun _ => 0 := by funext a; fin_cases a <;> rfl

/-- ci = 0, as the body computes it from the grid coordinates: exactly the points with t % 5 = 0. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 :=
  (by decide +kernel : ∀ t : Fin grid0.N, cond0_0 (grid0.coords t) ↔ t.val % 5 = 0)

/-- ci = 4, as the body computes it: exactly the points with t % 5 = 4. -/
abbrev cond0_1 (i : grid0.Coords) : Prop := k0_cond2 i = 1#1

theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ others0 (F := F) c) ∗ (∃ r, prngReg c r)) := by
  unfold Pipeline.ΦA others0; rw [scopedRest0_eq]; simp only [scM0_0, scM0_1, scM0_2, owns_whole]; try rfl

end Cert.KernelIdeal.Hand

end
-- ==== Proof.R0RunA.lean ====
import proofs.«431482_j82446192214711_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S256x1 .i32) (harg2 : arg2.IsWhole) (arg3 : Memref sig .tc .vmem S256x6400 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (x0 : Vec F S256x1 .i32) (x1 : Vec F S256x6400 .f32)

set_option maxHeartbeats 1000000 in
/-- ci = 0: whatever the three columns held, they end one step from the restart values (-inf, 0, 0). -/
theorem body0_A (hc0 : cond0_0 i) (hc1 : ¬cond0_1 i) (xi2 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (step0 i x0 x1 init0).1 ∗ owns (c : Thread nD τ) arg6 fullShare (step0 i x0 x1 init0).2.1 ∗ owns (c : Thread nD τ) arg7 fullShare (step0 i x0 x1 init0).2.2) -∗ K ⟨⟩))
      ⊢ wp frame (wpE (defs₀ (F := F)) Variants.none c none) E (cc0__ce_kernel i arg2 harg2 arg3 harg3 arg4 harg4 arg5 harg5 arg6 harg6 arg7 harg7) K := by
  simp only [cc0__ce_kernel_eq_skeleton]; unfold cc0__ce_kernel_skel
  simp only [k0_part1_eq_skeleton]
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]; iexists _; isplitr; swap; iexact H0; ipureintro; rotate_left
  isplitl [H1]; iexists _; isplitr; swap; iexact H1; ipureintro; rotate_left
  isplitl [H2]; iexists _; isplitr; swap; iexact H2; ipureintro; rotate_left
  isplitl [HS0]; iexists _; isplitr; swap; iexact HS0; ipureintro; rotate_left
  isplitl [HS1]; iexists _; isplitr; swap; iexact HS1; ipureintro; rotate_left
  iexists _; isplitr; swap; iexact HS2; ipureintro
  all_goals first
    | exact Memref.IsWhole.read_unread ‹_› _
    | refine (View.read_writes_eq_canon _ _ _ (View.cover_of_tiledL _ S256x1.size (by sl_kernel_rfl))).trans ?_
      sl_unfold_words
      rw [View.canon_cons_unit_zero (S := S256x1) hz2_0]
      simp only [View.readAt_eq_ld, harg2.read_unread, harg3.read_unread, harg5.read_unread, harg6.read_unread, harg7.read_unread,
        View.ld_unit_zero (S := S256x6400) hz2_0, View.ld_unit_zero (S := S256x1) hz2_0, View.readCov_unit_zero (S := S256x1) _ hz2_0]
      first | done | rfl

end Cert.KernelIdeal.Hand

end
-- ==== Proof.R0RunB.lean ====
import proofs.«431482_j82446192214711_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S256x1 .i32) (harg2 : arg2.IsWhole) (arg3 : Memref sig .tc .vmem S256x6400 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (x0 : Vec F S256x1 .i32) (x1 : Vec F S256x6400 .f32)

set_option maxHeartbeats 1000000 in
/-- 0 < ci < 4: the three columns advance one step from what they held. -/
theorem body0_B (s : St0 F) (hc0 : ¬cond0_0 i) (hc1 : ¬cond0_1 i) (xi2 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare s.1 ∗ owns (c : Thread nD τ) arg6 fullShare s.2.1 ∗ owns (c : Thread nD τ) arg7 fullShare s.2.2
        ∗ (iprop(owns (c : Thread nD τ) arg2 fullShare x0 ∗ owns (c : Thread nD τ) arg3 fullShare x1 ∗ owns (c : Thread nD τ) arg4 fullShare xi2
            ∗ owns (c : Thread nD τ) arg5 fullShare (step0 i x0 x1 s).1 ∗ owns (c : Thread nD τ) arg6 fullShare (step0 i x0 x1 s).2.1 ∗ owns (c : Thread nD τ) arg7 fullShare (step0 i x0 x1 s).2.2) -∗ K ⟨⟩))
      ⊢ wp frame (wpE (defs₀ (F := F)) Variants.none c none) E (cc0__ce_kernel i arg2 harg2 arg3 harg3 arg4 harg4 arg5 harg5 arg6 harg6 arg7 harg7) K := by
  simp only [cc0__ce_kernel_eq_skeleton]; unfold cc0__ce_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hfs0; obtain rfl := harg6.eq_unread hfs1; obtain rfl := harg7.eq_unread hfs2
  sl_exec (disch := first | exact hc0 | exact hc1)
  sl_step
  iapply Hk
  isplitl [H0]; iexists _; isplitr; swap; iexact H0; ipureintro; rotate_left
  isplitl [H1]; iexists _; isplitr; swap; iexact H1; ipureintro; rotate_left
  isplitl [H2]; iexists _; isplitr; swap; iexact H2; ipureintro; rotate_left
  isplitl [HS0]; iexists _; isplitr; swap; iexact HS0; ipureintro; rotate_left
  isplitl [HS1]; iexists _; isplitr; swap; iexact HS1; ipureintro; rotate_left
  iexists _; isplitr; swap; iexact HS2; ipureintro
  all_goals first
    | exact Memref.IsWhole.read_unread ‹_› _
    | refine (View.read_writes_eq_canon _ _ _ (View.cover_of_tiledL _ S256x1.size (by sl_kernel_rfl))).trans ?_
      sl_unfold_words
      rw [View.canon_cons_unit_zero (S := S256x1) hz2_0]
      simp only [View.readAt_eq_ld, harg2.read_unread, harg3.read_unread, harg5.read_unread, harg6.read_unread, harg7.read_unread,
        View.ld_unit_zero (S := S256x6400) hz2_0, View.ld_unit_zero (S := S256x1) hz2_0, View.readCov_unit_zero (S := S256x1) _ hz2_0]
      first | done | rfl

end Cert.KernelIdeal.Hand

end
-- ==== Proof.R0RunC.lean ====
import proofs.«431482_j82446192214711_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid0.Coords) (arg2 : Memref sig .tc .vmem S256x1 .i32) (harg2 : arg2.IsWhole) (arg3 : Memref sig .tc .vmem S256x6400 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (x0 : Vec F S256x1 .i32) (x1 : Vec F S256x6400 .f32)

set_option maxHeartbeats 1000000 in
/-- ci = 4: the three columns advance one step, and the output block takes (max + log sum) - picked of the new columns. -/
theorem body0_C (s : St0 F) (hc0 : ¬cond0_0 i) (hc1 : cond0_1 i) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s.1 ∗ owns (c : Thread nD τ) arg6 fullShare s.2.1 ∗ owns (c : Thread nD τ) arg7 fullShare s.2.2
        ∗ (iprop(owns (c : Thread nD τ) arg2 fullShare x0 ∗ owns (c : Thread nD τ) arg3 fullShare x1 ∗ owns (c : Thread nD τ) arg4 fullShare (k0_pay3 (step0 i x0 x1 s).1 (step0 i x0 x1 s).2.1 (step0 i x0 x1 s).2.2)
            ∗ owns (c : Thread nD τ) arg5 fullShare (step0 i x0 x1 s).1 ∗ owns (c : Thread nD τ) arg6 fullShare (step0 i x0 x1 s).2.1 ∗ owns (c : Thread nD τ) arg7 fullShare (step0 i x0 x1 s).2.2) -∗ K ⟨⟩))
      ⊢ wp frame (wpE (defs₀ (F := F)) Variants.none c none) E (cc0__ce_kernel i arg2 harg2 arg3 harg3 arg4 harg4 arg5 harg5 arg6 harg6 arg7 harg7) K := by
  simp only [cc0__ce_kernel_eq_skeleton]; unfold cc0__ce_kernel_skel
  simp only [k0_part1_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg5.eq_unread hfs0; obtain rfl := harg6.eq_unread hfs1; obtain rfl := harg7.eq_unread hfs2
  sl_exec (disch := first | exact hc0 | exact hc1)
  sl_step
  iapply Hk
  isplitl [H0]; iexists _; isplitr; swap; iexact H0; ipureintro; rotate_left
  isplitl [H1]; iexists _; isplitr; swap; iexact H1; ipureintro; rotate_left
  isplitl [H2]; iexists _; isplitr; swap; iexact H2; ipureintro; rotate_left
  isplitl [HS0]; iexists _; isplitr; swap; iexact HS0; ipureintro; rotate_left
  isplitl [HS1]; iexists _; isplitr; swap; iexact HS1; ipureintro; rotate_left
  iexists _; isplitr; swap; iexact HS2; ipureintro
  all_goals first
    | exact Memref.IsWhole.read_unread ‹_› _
    | refine (View.read_writes_eq_canon _ _ _ (View.cover_of_tiledL _ S256x1.size (by sl_kernel_rfl))).trans ?_
      sl_unfold_words
      rw [View.canon_cons_unit_zero (S := S256x1) hz2_0]
      simp only [View.readAt_eq_ld, harg2.read_unread, harg3.read_unread, harg5.read_unread, harg6.read_unread, harg7.read_unread,
        View.ld_unit_zero (S := S256x6400) hz2_0, View.ld_unit_zero (S := S256x1) hz2_0, View.readCov_unit_zero (S := S256x1) _ hz2_0]
      first | done | rfl

end Cert.KernelIdeal.Hand

end
-- ==== Proof.R0Body.lean ====
import proofs.«431482_j82446192214711_2_alg».proof.Proof.R0RunA
import proofs.«431482_j82446192214711_2_alg».proof.Proof.R0RunB
import proofs.«431482_j82446192214711_2_alg».proof.Proof.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem PhiS0_succ (c : Dev nD) (n : ℕ) (hn : n < cfg0.N) :
    PhiS0 V c (n + 1) hn = iprop(owns (c : Thread nD τ) scM0_0 fullShare (st0 V c n hn).1 ∗ owns (c : Thread nD τ) scM0_1 fullShare (st0 V c n hn).2.1
      ∗ owns (c : Thread nD τ) scM0_2 fullShare (st0 V c n hn).2.2 ∗ others0 c ∗ (∃ r, prngReg c r)) := rfl

theorem PhiS0_pos (c : Dev nD) (n : ℕ) (h : n ≤ cfg0.N) (hz : n ≠ 0) :
    PhiS0 V c n h = iprop(owns (c : Thread nD τ) scM0_0 fullShare (st0 V c (n - 1) (by omega)).1 ∗ owns (c : Thread nD τ) scM0_1 fullShare (st0 V c (n - 1) (by omega)).2.1
      ∗ owns (c : Thread nD τ) scM0_2 fullShare (st0 V c (n - 1) (by omega)).2.2 ∗ others0 c ∗ (∃ r, prngReg c r)) := by
  cases n with
  | zero => exact absurd rfl hz
  | succ n => rfl

/-- At every position the invariant holds the three columns at some contents. -/
theorem PhiS0_weak (c : Dev nD) (n : ℕ) (h : n ≤ cfg0.N) :
    PhiS0 V c n h ⊢ iprop((∃ d, owns (c : Thread nD τ) scM0_0 fullShare d) ∗ (∃ d, owns (c : Thread nD τ) scM0_1 fullShare d)
      ∗ (∃ d, owns (c : Thread nD τ) scM0_2 fullShare d) ∗ others0 (F := F) c ∗ (∃ r, prngReg c r)) := by
  cases n with
  | zero =>
    rw [show PhiS0 V c 0 h = Pipeline.ΦA spec0 c from rfl, PhiA0_eq]
    iintro ⟨⟨HS0, HS1, HS2, Hot⟩, Hg⟩; iframe
  | succ n =>
    rw [PhiS0_succ]
    iintro ⟨HS0, HS1, HS2, Hot, Hg⟩; iframe Hot Hg
    isplitl [HS0]; · iexists _; iexact HS0
    isplitl [HS1]; · iexists _; iexact HS1
    iexists _; iexact HS2

theorem PhiS0_castSucc (c : Dev nD) (t : Fin cfg0.N) :
    (dat0 V c).Φ t.castSucc = PhiS0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: t % 5 says which of the three cases it is; the columns go in as the point before left them
    (as anything where they restart) and come out one step on (`st0_eq_step`); the output block is written at t % 5 = 4 only. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1]
  have hN : t.val < 80 := lt_of_lt_of_eq t.isLt N_0
  by_cases h4 : t.val % 5 = 4
  · have h0 : ¬t.val % 5 = 0 := by omega
    have hc0 : ¬cond0_0 (grid0.coords t) := fun h => h0 ((hcond0_0 t).mp h)
    have hc1 : cond0_1 (grid0.coords t) := (hcond0_1 t).mpr h4
    have hp : prev0 V c t = (st0 V c (t.val - 1) (Nat.lt_of_le_of_lt (Nat.sub_le _ _) t.isLt)) := by unfold prev0; rw [dif_neg h0]
    rw [show (dat0 V c).leavesExact 2 t = owns (c : Thread nD τ) (ms0_2 t) fullShare ((dat0 V c).after 2 t) from by
      unfold Dat.leavesExact; rw [liveAt0_2 t hc1], after0_2]
    unfold out0
    rw [st0_eq_step V c t, hp, PhiS0_castSucc V c t, PhiS0_pos V c _ _ (by omega)]
    iintro ⟨⟨HS0, HS1, HS2, Hot, Hg⟩, Ho, ⟨%d0, H0⟩, ⟨%d1, H1⟩, ⟨%d2, H2⟩⟩
    iapply (body0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk0 V c 0 t) (iblk0 V c 1 t) (st0 V c (t.val - 1) (Nat.lt_of_le_of_lt (Nat.sub_le _ _) t.isLt)) hc0 hc1 Set.univ _)
    iframe H0 H1 HS0 HS1 HS2
    isplitl [H2]; · iexists _; iexact H2
    iintro ⟨H0, H1, H2, HS0, HS1, HS2⟩
    iframe
  · have hc1 : ¬cond0_1 (grid0.coords t) := fun h => h4 ((hcond0_1 t).mp h)
    rw [Dat.leavesExact_idle (dat0 V c) 2 t (idleAt0_2 t hc1) (noFlush0_2 t hc1), st0_eq_step V c t, PhiS0_castSucc V c t]
    by_cases h0 : t.val % 5 = 0
    · have hc0 : cond0_0 (grid0.coords t) := (hcond0_0 t).mpr h0
      rw [show prev0 V c t = init0 from by unfold prev0; rw [dif_pos h0]]
      iintro ⟨HΦ, Ho, ⟨%d0, H0⟩, ⟨%d1, H1⟩, ⟨%d2, H2⟩⟩
      ihave HΦ' := (PhiS0_weak V c _ _) $$ HΦ
      icases HΦ' with ⟨HS0, HS1, HS2, Hot, Hg⟩
      iapply (body0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk0 V c 0 t) (iblk0 V c 1 t) hc0 hc1 ((dat0 V c).before 2 t d2) Set.univ _)
      iframe H0 H1 H2 HS0 HS1 HS2
      iintro ⟨H0, H1, H2, HS0, HS1, HS2⟩
      iframe H0 H1 HS0 HS1 HS2 Hot Hg Ho
      iexists _; iexact H2
    · have hc0 : ¬cond0_0 (grid0.coords t) := fun h => h0 ((hcond0_0 t).mp h)
      rw [show prev0 V c t = (st0 V c (t.val - 1) (Nat.lt_of_le_of_lt (Nat.sub_le _ _) t.isLt)) from by unfold prev0; rw [dif_neg h0],
        PhiS0_pos V c _ _ (by omega)]
      iintro ⟨⟨HS0, HS1, HS2, Hot, Hg⟩, Ho, ⟨%d0, H0⟩, ⟨%d1, H1⟩, ⟨%d2, H2⟩⟩
      iapply (body0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk0 V c 0 t) (iblk0 V c 1 t) (st0 V c (t.val - 1) (Nat.lt_of_le_of_lt (Nat.sub_le _ _) t.isLt)) hc0 hc1 ((dat0 V c).before 2 t d2) Set.univ _)
      iframe H0 H1 H2 HS0 HS1 HS2
      iintro ⟨H0, H1, H2, HS0, HS1, HS2⟩
      iframe H0 H1 HS0 HS1 HS2 Hot Hg Ho
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

/-- After the last point the columns' contents are forgotten. -/
theorem hout0 (c : Dev nD) : (dat0 V c).Φ (Fin.last cfg0.N) ⊢ Pipeline.ΦA spec0 c := by
  refine BIBase.Entails.trans (show (dat0 V c).Φ (Fin.last cfg0.N) ⊢ _ from PhiS0_weak V c (Fin.last cfg0.N).val (Nat.le_of_lt_succ (Fin.last cfg0.N).isLt)) ?_
  rw [PhiA0_eq]
  iintro ⟨HS0, HS1, HS2, Hot, Hg⟩; iframe

end Cert.KernelIdeal.Hand

end
-- ==== Proof.R1Runs.lean ====
import proofs.«431482_j82446192214711_2_alg».proof.Proof.R1Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- j = 0, as the body computes it: exactly the points with t % 8 = 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop :=
  (Scalar.cmpi .ne (Scalar.extui (Scalar.cmpi .eq (BitVec.ofNat 32 (i 0).val) (BitVec.ofNat 32 (i 1).val))) 0#32) = 1#1

abbrev cond1_2 (i : grid1.Coords) : Prop :=
  (Scalar.cmpi .ne (Scalar.extui (Scalar.cmpi .ne (BitVec.ofNat 32 (i 0).val) (BitVec.ofNat 32 (i 1).val))) 0#32) = 1#1

/-- The body's two tests "i = j" and "i ≠ j" agree with the coordinates: a point is on the diagonal or off it. -/
abbrev Diag1 (i : grid1.Coords) : Prop :=
  (cond1_1 i ∧ ¬cond1_2 i ∧ (i 0).val = (i 1).val) ∨ (¬cond1_1 i ∧ cond1_2 i ∧ ¬(i 0).val = (i 1).val)
theorem diag1 : ∀ t : Fin cfg1.N, Diag1 (grid1.coords t) := (by decide +kernel : ∀ t : Fin grid1.N, Diag1 (grid1.coords t))

/-- j = 7, as the body computes it: exactly the points with t % 8 = 7. -/
abbrev cond1_3 (i : grid1.Coords) : Prop := k1_cond4 i = 1#1
theorem hcond1_3 : ∀ t : Fin cfg1.N, cond1_3 (grid1.coords t) ↔ t.val % 8 = 7 :=
  (by decide +kernel : ∀ t : Fin grid1.N, cond1_3 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

theorem idleAt1_4 : ∀ t : Fin cfg1.N, ¬cond1_3 (grid1.coords t) → cfg1.idle 4 (grid1.coords t) = true := by decide +kernel
theorem noFlush1_4 : ∀ t : Fin cfg1.N, ¬cond1_3 (grid1.coords t) → (cfg1.win 4).flush t = false := by decide +kernel

theorem liveAt1_4 : ∀ t : Fin cfg1.N, cond1_3 (grid1.coords t) → cfg1.idle 4 (grid1.coords t) = false := by decide +kernel

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

theorem PhiA1_split (c : Dev nD) :
    (Pipeline.ΦA spec1 c : sProp 𝕄)
      ⊢ iprop((∃ d, owns (c : Thread nD τ) scM1_0 fullShare d) ∗ others1 c ∗ (∃ r, prngReg c r)) := by
  unfold Pipeline.ΦA others1; rw [scopedRest1_eq]; simp only [scM1_0, owns_whole]
  iintro ⟨⟨A0, A1, A2, A3, A4, A5, A6, A7, A8, S⟩, P⟩; iframe

theorem PhiA1_join (c : Dev nD) :
    iprop((∃ d, owns (c : Thread nD τ) scM1_0 fullShare d) ∗ others1 c ∗ (∃ r, prngReg c r))
      ⊢ (Pipeline.ΦA spec1 c : sProp 𝕄) := by
  unfold Pipeline.ΦA others1; rw [scopedRest1_eq]; simp only [scM1_0, owns_whole]
  iintro ⟨S, ⟨A0, A1, A2, A3, A4, A5, A6, A7, A8⟩, P⟩; iframe

end Cert.KernelIdeal.Hand

end
-- ==== Proof.R1RunA.lean ====
import proofs.«431482_j82446192214711_2_alg».proof.Proof.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole)
variable (x0 : Vec F S512x1024 .bf16) (x1 : Vec F S4096x1024 .bf16) (x2 : Vec F S512x1 .f32) (x3 : Vec F S1x512 .f32)

set_option maxHeartbeats 1000000 in
/-- j = 0: whatever the column held, it ends one step from zero. -/
theorem body1_A (hc0 : cond1_0 i) (hd : Diag1 i) (hc3 : ¬cond1_3 i) (xi4 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step1 i x0 x1 x2 x3 k1_pay1)) -∗ K ⟨⟩))
      ⊢ wp frame (wpE (defs₀ (F := F)) Variants.none c none) E (cc1__contrastive_kernel i arg2 harg2 arg3 harg3 arg4 harg4 arg5 harg5 arg6 harg6 arg7 harg7) K := by
  simp only [cc1__contrastive_kernel_eq_skeleton]; unfold cc1__contrastive_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  rcases hd with ⟨hc1, hc2, hd⟩ | ⟨hc1, hc2, hd⟩
  all_goals
    sl_exec (disch := first | exact hc0 | exact hc1 | exact hc2 | exact hc3)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    iexists _; isplitr; swap; iexact HS0; ipureintro
    all_goals first
      | exact Memref.IsWhole.read_unread ‹_› _
      | refine (View.read_writes_eq_canon _ _ _ (View.cover_of_tiledL _ S512x1.size (by sl_kernel_rfl))).trans ?_
        unfold step1; first | rw [if_pos hd] | rw [if_neg hd]
        sl_unfold_words
        rw [View.canon_cons_unit_zero (S := S512x1) hz2]
        simp only [View.readAt_eq_ld, harg2.read_unread, harg3.read_unread, harg4.read_unread, harg5.read_unread,
          View.ld_unit_zero (S := S512x1024) hz2, View.ld_unit_zero (S := S512x1) hz2, View.ld_unit_zero (S := S1x512) hz2,
          View.readCov_unit_zero (S := S512x1) _ hz2]
        first | done | rfl

end Cert.KernelIdeal.Hand

end
-- ==== Proof.R1RunB.lean ====
import proofs.«431482_j82446192214711_2_alg».proof.Proof.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole)
variable (x0 : Vec F S512x1024 .bf16) (x1 : Vec F S4096x1024 .bf16) (x2 : Vec F S512x1 .f32) (x3 : Vec F S1x512 .f32) (xs0 : Vec F S512x1 .f32)

set_option maxHeartbeats 1000000 in
/-- 0 < j < 7: the column advances one step from what it held. -/
theorem body1_B (hc0 : ¬cond1_0 i) (hd : Diag1 i) (hc3 : ¬cond1_3 i) (xi4 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step1 i x0 x1 x2 x3 xs0)) -∗ K ⟨⟩))
      ⊢ wp frame (wpE (defs₀ (F := F)) Variants.none c none) E (cc1__contrastive_kernel i arg2 harg2 arg3 harg3 arg4 harg4 arg5 harg5 arg6 harg6 arg7 harg7) K := by
  simp only [cc1__contrastive_kernel_eq_skeleton]; unfold cc1__contrastive_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0
  rcases hd with ⟨hc1, hc2, hd⟩ | ⟨hc1, hc2, hd⟩
  all_goals
    sl_exec (disch := first | exact hc0 | exact hc1 | exact hc2 | exact hc3)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    iexists _; isplitr; swap; iexact HS0; ipureintro
    all_goals first
      | exact Memref.IsWhole.read_unread ‹_› _
      | refine (View.read_writes_eq_canon _ _ _ (View.cover_of_tiledL _ S512x1.size (by sl_kernel_rfl))).trans ?_
        unfold step1; first | rw [if_pos hd] | rw [if_neg hd]
        sl_unfold_words
        rw [View.canon_cons_unit_zero (S := S512x1) hz2]
        simp only [View.readAt_eq_ld, harg2.read_unread, harg3.read_unread, harg4.read_unread, harg5.read_unread, harg7.read_unread,
          View.ld_unit_zero (S := S512x1024) hz2, View.ld_unit_zero (S := S512x1) hz2, View.ld_unit_zero (S := S1x512) hz2,
          View.readCov_unit_zero (S := S512x1) _ hz2]
        first | done | rfl

end Cert.KernelIdeal.Hand

end
-- ==== Proof.R1RunC.lean ====
import proofs.«431482_j82446192214711_2_alg».proof.Proof.R1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole)
variable (x0 : Vec F S512x1024 .bf16) (x1 : Vec F S4096x1024 .bf16) (x2 : Vec F S512x1 .f32) (x3 : Vec F S1x512 .f32) (xs0 : Vec F S512x1 .f32)

set_option maxHeartbeats 1000000 in
/-- j = 7: the column advances one step, and the output block takes the new column. -/
theorem body1_C (hc0 : ¬cond1_0 i) (hd : Diag1 i) (hc3 : cond1_3 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step1 i x0 x1 x2 x3 xs0) ∗ owns (c : Thread nD τ) arg7 fullShare (step1 i x0 x1 x2 x3 xs0)) -∗ K ⟨⟩))
      ⊢ wp frame (wpE (defs₀ (F := F)) Variants.none c none) E (cc1__contrastive_kernel i arg2 harg2 arg3 harg3 arg4 harg4 arg5 harg5 arg6 harg6 arg7 harg7) K := by
  simp only [cc1__contrastive_kernel_eq_skeleton]; unfold cc1__contrastive_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  rcases hd with ⟨hc1, hc2, hd⟩ | ⟨hc1, hc2, hd⟩
  all_goals
    sl_exec (disch := first | exact hc0 | exact hc1 | exact hc2 | exact hc3)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    iexists _; isplitr; swap; iexact HS0; ipureintro
    all_goals first
      | exact Memref.IsWhole.read_unread ‹_› _
      | refine (View.read_writes_eq_canon _ _ _ (View.cover_of_tiledL _ S512x1.size (by sl_kernel_rfl))).trans ?_
        unfold step1; first | rw [if_pos hd] | rw [if_neg hd]
        sl_unfold_words
        rw [View.canon_cons_unit_zero (S := S512x1) hz2]
        simp only [View.readAt_eq_ld, harg2.read_unread, harg3.read_unread, harg4.read_unread, harg5.read_unread, harg7.read_unread,
          View.ld_unit_zero (S := S512x1024) hz2, View.ld_unit_zero (S := S512x1) hz2, View.ld_unit_zero (S := S1x512) hz2,
          View.readCov_unit_zero (S := S512x1) _ hz2]
        first | done | rfl

end Cert.KernelIdeal.Hand

end
-- ==== Proof.R1Body.lean ====
import proofs.«431482_j82446192214711_2_alg».proof.Proof.R1RunA
import proofs.«431482_j82446192214711_2_alg».proof.Proof.R1RunB
import proofs.«431482_j82446192214711_2_alg».proof.Proof.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem PhiS1_succ (c : Dev nD) (n : ℕ) (hn : n < cfg1.N) :
    PhiS1 V c (n + 1) hn = iprop(owns (c : Thread nD τ) scM1_0 fullShare (acc1 V c n hn) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega)) ∗ others1 c ∗ (∃ r, prngReg c r)) := by
  cases n with
  | zero => exact absurd rfl hz
  | succ n => rfl

/-- At every position the invariant holds the column at some contents. -/
theorem PhiS1_weak (c : Dev nD) (n : ℕ) (h : n ≤ cfg1.N) :
    PhiS1 V c n h ⊢ iprop((∃ d, owns (c : Thread nD τ) scM1_0 fullShare d) ∗ others1 (F := F) c ∗ (∃ r, prngReg c r)) := by
  cases n with
  | zero => exact PhiA1_split c
  | succ n =>
    rw [PhiS1_succ]
    iintro ⟨HS, Hot, Hg⟩; iframe Hot Hg
    iexists _; iexact HS

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point: t % 8 says whether the column restarts, is carried, or is carried and stored; the column goes in
    as the point before left it (as anything where it restarts) and comes out one step on (`acc1_eq_step`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS1 V c (t.val + 1) t.isLt from rfl, PhiS1_succ,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3]
  have hN : t.val < 64 := lt_of_lt_of_eq t.isLt N_1
  by_cases h7 : t.val % 8 = 7
  · have h0 : ¬t.val % 8 = 0 := by omega
    have hc0 : ¬cond1_0 (grid1.coords t) := fun h => h0 ((hcond1_0 t).mp h)
    have hc3 : cond1_3 (grid1.coords t) := (hcond1_3 t).mpr h7
    have hp : prev1 V c t = (acc1 V c (t.val - 1) (Nat.lt_of_le_of_lt (Nat.sub_le _ _) t.isLt)) := by unfold prev1; rw [dif_neg h0]
    rw [show (dat1 V c).leavesExact 4 t = owns (c : Thread nD τ) (ms1_4 t) fullShare ((dat1 V c).after 4 t) from by
      unfold Dat.leavesExact; rw [liveAt1_4 t hc3], after1_4]
    unfold out1
    rw [acc1_eq_step V c t, hp, PhiS1_castSucc V c t, PhiS1_pos V c _ _ (by omega)]
    iintro ⟨⟨HS, Hot, Hg⟩, Ho, ⟨%d0, H0⟩, ⟨%d1, H1⟩, ⟨%d2, H2⟩, ⟨%d3, H3⟩, ⟨%d4, H4⟩⟩
    iapply (body1_C c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (acc1 V c (t.val - 1) (Nat.lt_of_le_of_lt (Nat.sub_le _ _) t.isLt)) hc0 (diag1 t) hc3 Set.univ _)
    iframe H0 H1 H2 H3 HS
    isplitl [H4]; · iexists _; iexact H4
    iintro ⟨H0, H1, H2, H3, H4, HS⟩
    iframe
  · have hc3 : ¬cond1_3 (grid1.coords t) := fun h => h7 ((hcond1_3 t).mp h)
    rw [Dat.leavesExact_idle (dat1 V c) 4 t (idleAt1_4 t hc3) (noFlush1_4 t hc3), acc1_eq_step V c t, PhiS1_castSucc V c t]
    by_cases h0 : t.val % 8 = 0
    · have hc0 : cond1_0 (grid1.coords t) := (hcond1_0 t).mpr h0
      rw [show prev1 V c t = k1_pay1 from by unfold prev1; rw [dif_pos h0]]
      iintro ⟨HΦ, Ho, ⟨%d0, H0⟩, ⟨%d1, H1⟩, ⟨%d2, H2⟩, ⟨%d3, H3⟩, ⟨%d4, H4⟩⟩
      ihave HΦ' := (PhiS1_weak V c _ _) $$ HΦ
      icases HΦ' with ⟨HS, Hot, Hg⟩
      iapply (body1_A c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) hc0 (diag1 t) hc3 ((dat1 V c).before 4 t d4) Set.univ _)
      iframe H0 H1 H2 H3 H4 HS
      iintro ⟨H0, H1, H2, H3, H4, HS⟩
      iframe H0 H1 H2 H3 HS Hot Hg Ho
      iexists _; iexact H4
    · have hc0 : ¬cond1_0 (grid1.coords t) := fun h => h0 ((hcond1_0 t).mp h)
      rw [show prev1 V c t = (acc1 V c (t.val - 1) (Nat.lt_of_le_of_lt (Nat.sub_le _ _) t.isLt)) from by unfold prev1; rw [dif_neg h0], PhiS1_pos V c _ _ (by omega)]
      iintro ⟨⟨HS, Hot, Hg⟩, Ho, ⟨%d0, H0⟩, ⟨%d1, H1⟩, ⟨%d2, H2⟩, ⟨%d3, H3⟩, ⟨%d4, H4⟩⟩
      iapply (body1_B c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (acc1 V c (t.val - 1) (Nat.lt_of_le_of_lt (Nat.sub_le _ _) t.isLt)) hc0 (diag1 t) hc3 ((dat1 V c).before 4 t d4) Set.univ _)
      iframe H0 H1 H2 H3 H4 HS
      iintro ⟨H0, H1, H2, H3, H4, HS⟩
      iframe H0 H1 H2 H3 HS Hot Hg Ho
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

/-- After the last point the column's contents are forgotten. -/
theorem hout1 (c : Dev nD) : (dat1 V c).Φ (Fin.last cfg1.N) ⊢ Pipeline.ΦA spec1 c :=
  BIBase.Entails.trans (show (dat1 V c).Φ (Fin.last cfg1.N) ⊢ _ from PhiS1_weak V c (Fin.last cfg1.N).val (Nat.le_of_lt_succ (Fin.last cfg1.N).isLt)) (PhiA1_join c)

end Cert.KernelIdeal.Hand

end
-- ==== Proof.Launch.lean ====
import proofs.«431482_j82446192214711_2_alg».proof.Proof.Vals
import proofs.«431482_j82446192214711_2_alg».proof.Proof.R0Body
import proofs.«431482_j82446192214711_2_alg».proof.Proof.R1Body
import proofs.«431482_j82446192214711_2_alg».proof.Proof.Gen.KernelIdeal.Regions
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! Each item of @main leaves every buffer it does not write as it found it. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v10) : W4 m c r = W3 m c r := by
  simp only [W4, Function.update_of_ne (StableHlo.devRef_ne_of_ne h : (Proc.devRef .tc r : DevRef τ sig) ≠ Proc.devRef .tc main_v10)]
theorem W5_of (c : Dev nD) (r : Ref sig .tc) (h : r ∉ hostOps2_W) : W5 m c r = W4 m c r :=
  StableHlo.after_of_writes_sub hostOps2 _ hostOps2_writes h

abbrev V2 : (c : Dev nD) → (b : Ref sig .tc) → Buf (Elt F) ((c : Thread nD τ).loc b) := fun c b => W2 m c b

abbrev V4 : (c : Dev nD) → (b : Ref sig .tc) → Buf (Elt F) ((c : Thread nD τ).loc b) := fun c b => W4 m c b

/-- Both regions' proof data, each from the contents the region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none

abbrev L : GSem nD τ sig → Finset Unit := fun _ => ∅
abbrev lv : GSem nD τ sig → Unit → ℕ := fun _ _ => 0

/-- What rides beside the buffers through every item: the random-number register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 ends with its output array at the folded write-backs and every other buffer as entered. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of m c main_v0 (by decide)).symm
  | ⟨1, _⟩ => exact (((dat0 (V1 m) c).arrAt_in 1 rfl _).trans (A_eq0 (V1 m) c 1)).trans (W2_of m c main_arg0 (by decide)).symm
  | ⟨2, _⟩ => exact (Function.update_self (β := fun b : DevRef τ sig => Buf (Elt F) ((c : Thread nD τ).1, b)) (Proc.devRef .tc main_v1) (ce m c) (W1 m c)).symm
theorem hrest0 (c : Dev nD) : ∀ b, b ∉ Finset.univ.image (Pipeline.arrRef spec0) → V2 m c b = V1 m c b :=
  fun b hb => W2_of m c b fun e => hb (Finset.mem_image.mpr ⟨2, Finset.mem_univ _, e.symm⟩)

set_option backward.isDefEq.respectTransparency.types false in
/-- Region 0 from the contents W1 to W2: its arrays are split out of the buffers held and joined back at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine BIBase.Entails.trans ?_ (hin0 (V1 m) c)
    unfold Pipeline.ΦA
    iintro ⟨Hp, -, Hr⟩; iframe
  hout c := by
    rw [Pipeline.ownSems0_none]
    refine (hout0 (V1 m) c).trans ?_
    unfold Pipeline.ΦA
    iintro ⟨Hr, Hp⟩; iframe; iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

theorem arrBufs1_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v9) ↦{fullShare} G main_v9) ∗ (((c : Thread nD τ).loc main_v7) ↦{fullShare} G main_v7)
          ∗ (((c : Thread nD τ).loc main_v8) ↦{fullShare} G main_v8) ∗ (((c : Thread nD τ).loc main_v10) ↦{fullShare} G main_v10)) := by
  unfold Pipeline.arrBufs
  exact bigSep_eq_bigSepL_of_eq [main_v9, main_v7, main_v8, main_v10] (by decide) (by decide) _

theorem arrays1_eq (c : Dev nD) (V : (c : Dev nD) → (b : Ref sig .tc) → Buf (Elt F) ((c : Thread nD τ).loc b))
    (Fw : (w : Fin cfg1.W) → Buf (Elt F) ((cfg1.win w).arr.view.loc (c.tc : Thread nD τ))) :
    (dat1 V c).arrays Fw
      = iprop((((c : Thread nD τ).loc main_v9) ↦{fullShare.left} Fw 0) ∗ (((c : Thread nD τ).loc main_v9) ↦{fullShare.right} Fw 1)
          ∗ (((c : Thread nD τ).loc main_v7) ↦{fullShare} Fw 2) ∗ (((c : Thread nD τ).loc main_v8) ↦{fullShare} Fw 3)
          ∗ (((c : Thread nD τ).loc main_v10) ↦{fullShare} Fw 4)) := by
  unfold Dat.arrays
  rw [bigSep_W1, (arr_whole1 0).set_eq_univ, (arr_whole1 2).set_eq_univ, (arr_whole1 3).set_eq_univ, (arr_whole1 4).set_eq_univ]
  rfl

/-- Two windows of region 1 read the feature array: its full share is dealt to them in halves at the entry, -/
theorem hsplit1 (c : Dev nD) (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c.tc : Thread nD τ)))
    (hF : ∀ w, Fw w = G (Pipeline.arrRef spec1 w)) :
    (Pipeline.arrBufs (Ix := Unit) (Name := ℕ) (U := UR sig nD τ) (Lvl := ℕ) spec1 c G : sProp 𝕄) ⊢ (dat1 V c).arrays Fw := by
  rw [arrBufs1_eq, arrays1_eq, hF 0, hF 1, hF 2, hF 3, hF 4]
  iintro ⟨H9, H7, H8, H10⟩
  ihave H9' := (pointsTo_share (PosShare.mem_left_op_right fullShare)).1 $$ H9
  icases H9' with ⟨H9l, H9r⟩; iframe

/-- and the halves, at equal contents, are joined again at the exit. -/
theorem hjoin1 (c : Dev nD) (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c.tc : Thread nD τ)))
    (hF : ∀ w, Fw w = G (Pipeline.arrRef spec1 w)) :
    (dat1 V c).arrays Fw ⊢ (Pipeline.arrBufs (Ix := Unit) (Name := ℕ) (U := UR sig nD τ) (Lvl := ℕ) spec1 c G : sProp 𝕄) := by
  rw [arrBufs1_eq, arrays1_eq, hF 0, hF 1, hF 2, hF 3, hF 4]
  iintro ⟨H9l, H9r, H7, H8, H10⟩
  iframe H7 H8 H10
  iapply (pointsTo_share (PosShare.mem_left_op_right fullShare)).2; iframe

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W]
  exact Pipeline.unscopedBufs_split₀ cfgs (1 : Fin 2) winFacts₀1.arr_unscoped c (fun b => W b)

theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of m c main_v9 (by decide)).symm
  | ⟨1, _⟩ => exact (((dat1 (V3 m) c).arrAt_in 1 rfl _).trans (A_eq1 (V3 m) c 1)).trans (W4_of m c main_v9 (by decide)).symm
  | ⟨2, _⟩ => exact (((dat1 (V3 m) c).arrAt_in 2 rfl _).trans (A_eq1 (V3 m) c 2)).trans (W4_of m c main_v7 (by decide)).symm
  | ⟨3, _⟩ => exact (((dat1 (V3 m) c).arrAt_in 3 rfl _).trans (A_eq1 (V3 m) c 3)).trans (W4_of m c main_v8 (by decide)).symm
  | ⟨4, _⟩ => exact (Function.update_self (β := fun b : DevRef τ sig => Buf (Elt F) ((c : Thread nD τ).1, b)) (Proc.devRef .tc main_v10) (hg m c) (W3 m c)).symm
theorem hrest1 (c : Dev nD) : ∀ b, b ∉ Finset.univ.image (Pipeline.arrRef spec1) → V4 m c b = V3 m c b :=
  fun b hb => W4_of m c b fun e => hb (Finset.mem_image.mpr ⟨4, Finset.mem_univ _, e.symm⟩)

set_option backward.isDefEq.respectTransparency.types false in
/-- Region 1 from the contents W3 to W4. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none, held_split1]
    have hsplit := hsplit1 c (V3 m) (V3 m c) ((dat1 (V3 m) c).arrAt · 0) fun _ => rfl
    iintro ⟨⟨⟨Hab, Hrest⟩, Hp, HO⟩, -, -⟩
    ihave Ha := hsplit $$ Hab
    imodintro
    isplitl [Ha]; · iexact Ha
    iframe Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine BIBase.Entails.trans ?_ (hin1 (V3 m) c)
    unfold Pipeline.ΦA
    iintro ⟨Hp, -, Hr⟩; iframe
  hout c := by
    rw [Pipeline.ownSems0_none]
    refine (hout1 (V3 m) c).trans ?_
    unfold Pipeline.ΦA
    iintro ⟨Hr, Hp⟩; iframe; iempintro
  hexit c := by
    rw [held_split1]
    have hjoin := hjoin1 c (V3 m) (V4 m c) ((dat1 (V3 m) c).arrAt · cfg1.N) (hF1 m c)
    have hrest : (Pipeline.unscopedRest (Ix := Unit) (Name := ℕ) (U := UR sig nD τ) (Lvl := ℕ) spec1 c (V3 m c) : sProp 𝕄)
        = Pipeline.unscopedRest (Ix := Unit) (Name := ℕ) (U := UR sig nD τ) (Lvl := ℕ) spec1 c (V4 m c) := by
      unfold Pipeline.unscopedRest
      exact bigSep_congr fun b hb => by rw [hrest1 m c b (Finset.mem_sdiff.mp hb).2]
    rw [hrest]
    refine BIBase.Entails.trans (sep_mono hjoin .rfl) ?_
    iintro ⟨Hab, HO, HY, Hrest⟩
    imodintro
    isplitl [Hab Hrest]; · iframe
    isplitl [HY]; · iexact HY
    unfold Pipeline.Dat.owesAt Pipeline.owesWithin
    icases HO with ⟨%W, -, HO⟩; iexists W; iexact HO

/-- @main as five items: host stretch, region 0, host stretch, region 1, host stretch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W5 m c) ∗ ∃ r, prngReg c r)

set_option backward.isDefEq.respectTransparency.types false in
/-- Every weakly fair execution terminates with each core's buffers at W5, the launch contents folded through the five items. -/
theorem run : θ_run defs (onTc (τ := τ) (main (F := F))) ⟨m, fun _ => 0, ρ⟩ (fun r => ∀ c : Dev nD,
    ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show iprop(StableHlo.held (c : Thread nD τ) (Pipeline.ucRefs τ sig) (W5 m c) ∗ R c)
        ⊢ iprop(Tₙ m c ∗ ∃ W, owes (c.tc : Thread nD τ) (0 : CellTallies nD τ sig Unit) W) from by
      iintro ⟨Hh, Hp, HO⟩; iframe HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- A reference no item writes ends as launched. -/
theorem W5_keeps (c : Dev nD) (r : Ref sig .tc) (h5 : r ∉ hostOps2_W) (h4 : r ≠ main_v10) (h3 : r ∉ hostOps1_W) (h2 : r ≠ main_v1)
    (h1 : r ∉ hostOps0_W) : W5 m c r = m ((c : Thread nD τ).loc r) :=
  (W5_of m c r h5).trans <| (W4_of m c r h4).trans <| (W3_of m c r h3).trans <| (W2_of m c r h2).trans <| (W1_of m c r h1).trans rfl

end Run

/-- The returned scalar's buffer ends at the fold's last contents, and every argument as launched. -/
theorem run_result : θ_run defs (onTc (τ := τ) (main (F := F))) ⟨m, fun _ => 0, ρ⟩ (fun r => ∀ c : Dev nD,
    r.2.mem ((c.tc : Thread nD τ).loc main_v14) = W5 m c main_v14
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨h c _ (Run.mem_uc main_v14 (by decide)),
     (h c _ (Run.mem_uc main_arg0 (by decide))).trans (Run.W5_keeps m c main_arg0 (by decide) (by decide) (by decide) (by decide) (by decide)),
     (h c _ (Run.mem_uc main_arg1 (by decide))).trans (Run.W5_keeps m c main_arg1 (by decide) (by decide) (by decide) (by decide) (by decide)),
     (h c _ (Run.mem_uc main_arg2 (by decide))).trans (Run.W5_keeps m c main_arg2 (by decide) (by decide) (by decide) (by decide) (by decide))⟩) (Run.run m ρ)

theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => (h c).2) (run_result m ρ)

end Cert.KernelIdeal.Hand

end
-- ==== Proof.Bits.R0Data.lean ====
import proofs.«431482_j82446192214711_2_alg».proof.Proof.Gen.Kernel.Launch
import proofs.«431482_j82446192214711_2_alg».proof.Proof.Gen.Kernel.Skeleton
import proofs.«431482_j82446192214711_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Per row of a 256-row tile: the running maximum, the running sum of exponentials against it, the running picked logit. -/
abbrev St0 (F : FTy → Type) [FloatOps F] : Type := Vec F S256x1 .f32 × Vec F S256x1 .f32 × Vec F S256x1 .f32

/-- (-inf, 0, 0). -/
def init0 : St0 F := (k0_pay4, k0_pay5, k0_pay6)

/-- One column tile folded into the three columns. -/
def step0 (i : grid0.Coords) (lab : Vec F S256x1 .i32) (x : Vec F S256x6400 .f32) (s : St0 F) : St0 F :=
  (k0_pay2 (k0_pay8 x s.1), k0_pay1 (k0_pay9 x s.1 s.2.1 s.1) (k0_pay10 x s.1), k0_pay7 i x lab s.2.2)

/-- The columns after point n = 5 * ni + ci: restarted at ci = 0, stepped at every point. -/
def st0 (c : Dev nD) : (n : ℕ) → n < cfg0.N → St0 F
  | 0, hn => step0 (grid0.coords ⟨0, hn⟩) (iblk0 V c 0 ⟨0, hn⟩) (iblk0 V c 1 ⟨0, hn⟩) init0
  | n + 1, hn => step0 (grid0.coords ⟨n + 1, hn⟩) (iblk0 V c 0 ⟨n + 1, hn⟩) (iblk0 V c 1 ⟨n + 1, hn⟩)
      (if (n + 1) % 5 = 0 then init0 else st0 c n (Nat.lt_of_succ_lt hn))

theorem st0_succ (c : Dev nD) (n : ℕ) (hn : n + 1 < cfg0.N) :
    st0 V c (n + 1) hn = step0 (grid0.coords ⟨n + 1, hn⟩) (iblk0 V c 0 ⟨n + 1, hn⟩) (iblk0 V c 1 ⟨n + 1, hn⟩)
      (if (n + 1) % 5 = 0 then init0 else st0 V c n (Nat.lt_of_succ_lt hn)) := rfl

def prev0 (c : Dev nD) (t : Fin cfg0.N) : St0 F :=
  if h : t.val % 5 = 0 then init0 else st0 V c (t.val - 1) (Nat.lt_of_le_of_lt (Nat.sub_le _ _) t.isLt)

theorem st0_eq_step (c : Dev nD) (t : Fin cfg0.N) :
    st0 V c t.val t.isLt = step0 (grid0.coords t) (iblk0 V c 0 t) (iblk0 V c 1 t) (prev0 V c t) := by
  obtain ⟨n, hn⟩ := t
  cases n with
  | zero => simp only [prev0, Nat.zero_mod, dite_true]; rfl
  | succ n =>
    rw [st0_succ]; unfold prev0
    by_cases h : (n + 1) % 5 = 0
    · simp only [h, if_true, dite_true]
    · simp only [h, if_false, dite_false, Nat.add_sub_cancel]

/-- (max + log sum) - picked of the columns after point t: the cross entropy of the tile's rows when ci = 4. -/
def out0 (c : Dev nD) (t : Fin cfg0.N) : Vec F S256x1 .f32 :=
  k0_pay3 (st0 V c t.val t.isLt).1 (st0 V c t.val t.isLt).2.1 (st0 V c t.val t.isLt).2.2

abbrev scM0_0 : Memref sig .tc .vmem S256x1 .f32 := Memref.whole cc0_scratch0
abbrev scM0_1 : Memref sig .tc .vmem S256x1 .f32 := Memref.whole cc0_scratch1
abbrev scM0_2 : Memref sig .tc .vmem S256x1 .f32 := Memref.whole cc0_scratch2

def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The invariant: before the first point what the launch hands over, afterwards the three columns at `st0` of the point before. -/
def PhiS0 (c : Dev nD) : (n : ℕ) → n ≤ cfg0.N → sProp 𝕄
  | 0, _ => Pipeline.ΦA spec0 c
  | n + 1, hn => iprop(owns (c : Thread nD τ) scM0_0 fullShare (st0 V c n hn).1 ∗ owns (c : Thread nD τ) scM0_1 fullShare (st0 V c n hn).2.1
      ∗ owns (c : Thread nD τ) scM0_2 fullShare (st0 V c n hn).2.2 ∗ others0 c ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0 V c t := by dsimp only [dat0]

end Cert.Kernel.Hand

end
-- ==== Proof.Bits.R1Data.lean ====
import proofs.«431482_j82446192214711_2_alg».proof.Proof.Gen.Kernel.Launch
import proofs.«431482_j82446192214711_2_alg».proof.Proof.Gen.Kernel.Skeleton
import proofs.«431482_j82446192214711_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The 512 feature rows from row 512 * j. -/
abbrev rj1 (i : grid1.Coords) : Rect S4096x1024 := Rect.unit (s := S4096x1024) (k1_off1 i) S512x1024.size (k1_off1_inb i)

/-- One tile's row sums of hinges added to the column, the diagonal entries left out on the diagonal tile. -/
def step1 (i : grid1.Coords) (xi : Vec F S512x1024 .bf16) (xall : Vec F S4096x1024 .bf16) (ni : Vec F S512x1 .f32)
    (nj : Vec F S1x512 .f32) (a : Vec F S512x1 .f32) : Vec F S512x1 .f32 :=
  if (i 0).val = (i 1).val then k1_pay3 i xi (View.ld xall (rj1 i)) ni nj a
  else k1_pay4 xi (View.ld xall (rj1 i)) ni nj a

/-- The column after point n = 8 * i + j: restarted from zero at j = 0, stepped at every point. -/
def acc1 (c : Dev nD) : (n : ℕ) → n < cfg1.N → Vec F S512x1 .f32
  | 0, hn => step1 (grid1.coords ⟨0, hn⟩) (iblk1 V c 0 ⟨0, hn⟩) (iblk1 V c 1 ⟨0, hn⟩) (iblk1 V c 2 ⟨0, hn⟩) (iblk1 V c 3 ⟨0, hn⟩) k1_pay1
  | n + 1, hn => step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 8 = 0 then k1_pay1 else acc1 c n (Nat.lt_of_succ_lt hn))

theorem acc1_succ (c : Dev nD) (n : ℕ) (hn : n + 1 < cfg1.N) :
    acc1 V c (n + 1) hn = step1 (grid1.coords ⟨n + 1, hn⟩) (iblk1 V c 0 ⟨n + 1, hn⟩) (iblk1 V c 1 ⟨n + 1, hn⟩) (iblk1 V c 2 ⟨n + 1, hn⟩) (iblk1 V c 3 ⟨n + 1, hn⟩)
      (if (n + 1) % 8 = 0 then k1_pay1 else acc1 V c n (Nat.lt_of_succ_lt hn)) := rfl

def prev1 (c : Dev nD) (t : Fin cfg1.N) : Vec F S512x1 .f32 :=
  if h : t.val % 8 = 0 then k1_pay1 else acc1 V c (t.val - 1) (Nat.lt_of_le_of_lt (Nat.sub_le _ _) t.isLt)

theorem acc1_eq_step (c : Dev nD) (t : Fin cfg1.N) :
    acc1 V c t.val t.isLt = step1 (grid1.coords t) (iblk1 V c 0 t) (iblk1 V c 1 t) (iblk1 V c 2 t) (iblk1 V c 3 t) (prev1 V c t) := by
  obtain ⟨n, hn⟩ := t
  cases n with
  | zero => simp only [prev1, Nat.zero_mod, dite_true]; rfl
  | succ n =>
    rw [acc1_succ]; unfold prev1
    by_cases h : (n + 1) % 8 = 0
    · simp only [h, if_true, dite_true]
    · simp only [h, if_false, dite_false]; rfl

def out1 (c : Dev nD) (t : Fin cfg1.N) : Vec F S512x1 .f32 := acc1 V c t.val t.isLt

abbrev scM1_0 : Memref sig .tc .vmem S512x1 .f32 := Memref.whole cc1_scratch0

def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

/-- The invariant: before the first point what the launch hands over, afterwards the column at `acc1` of the point before. -/
def PhiS1 (c : Dev nD) : (n : ℕ) → n ≤ cfg1.N → sProp 𝕄
  | 0, _ => Pipeline.ΦA spec1 c
  | n + 1, hn => iprop(owns (c : Thread nD τ) scM1_0 fullShare (acc1 V c n hn) ∗ others1 c ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1 V c t
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1 V c t := by dsimp only [dat1]

end Cert.Kernel.Hand

end
-- ==== Proof.Bits.Vals.lean ====
import proofs.«431482_j82446192214711_2_alg».proof.Proof.Bits.R0Data
import proofs.«431482_j82446192214711_2_alg».proof.Proof.Bits.R1Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! Core c's buffers between the five items of @main, from the launch memory m: `ce` is the column region 0 leaves,
    `hg` the column region 1 leaves. -/

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c b

def ce (c : Dev nD) : Buf (Elt F) ((c : Thread nD τ).loc main_v1) := (dat0 (V1 m) c).arrAt 2 cfg0.N

abbrev W2 (c : Dev nD) : Valuation τ sig (Elt F) := Function.update (W1 m c) main_v1 (ce m c)

abbrev W3 (c : Dev nD) : Valuation τ sig (Elt F) := StableHlo.after hostOps1 (W2 m c)
abbrev V3 : (c : Dev nD) → (b : Ref sig .tc) → Buf (Elt F) ((c : Thread nD τ).loc b) := fun c b => W3 m c b

def hg (c : Dev nD) : Buf (Elt F) ((c : Thread nD τ).loc main_v10) := (dat1 (V3 m) c).arrAt 4 cfg1.N

abbrev W4 (c : Dev nD) : Valuation τ sig (Elt F) := Function.update (W3 m c) main_v10 (hg m c)

abbrev W5 (c : Dev nD) : Valuation τ sig (Elt F) := StableHlo.after hostOps2 (W4 m c)

end Cert.Kernel.Hand

end
-- ==== Proof.Bits.R0Runs.lean ====
import proofs.«431482_j82446192214711_2_alg».proof.Proof.Bits.R0Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem hz2_0 : (![0, 0] : Fin 2 → Nat) = fun _ => 0 := by funext a; fin_cases a <;> rfl

/-- ci = 0, as the body computes it from the grid coordinates: exactly the points with t % 5 = 0. -/
abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 5 = 0 :=
  (by decide +kernel : ∀ t : Fin grid0.N, cond0_0 (grid0.coords t) ↔ t.val % 5 = 0)

/-- ci = 4, as the body computes it: exactly the points with t % 5 = 4. -/
abbrev cond0_1 (i : grid0.Coords) : Prop := k0_cond2 i = 1#1

theorem hcond0_1 : ∀ t : Fin cfg0.N, cond0_1 (grid0.coords t) ↔ t.val % 5 = 4 :=
  (by decide +kernel : ∀ t : Fin grid0.N, cond0_1 (grid0.coords t) ↔ t.val % 5 = 4)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2 : ∀ t : Fin cfg0.N, ¬cond0_1 (grid0.coords t) → cfg0.idle 2 (grid0.coords t) = true := by decide +kernel

theorem noFlush0_2 : ∀ t : Fin cfg0.N, ¬cond0_1 (grid0.coords t) → (cfg0.win 2).flush t = false := by decide +kernel

theorem liveAt0_2 : ∀ t : Fin cfg0.N, cond0_1 (grid0.coords t) → cfg0.idle 2 (grid0.coords t) = false := by decide +kernel

abbrev ms0_0 (t : Fin cfg0.N) : Memref sig .tc .vmem S256x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x6400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x1 .f32 := win0_2.stage (cfg0.slots t 2)
abbrev hs0_2 (t : Fin cfg0.N) : (ms0_2 t).IsWhole := hstage0_2 ((cfg0.slots t 2).cast nbuf0_2)

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)
          ∗ (∃ d, owns (c : Thread nD τ) scM0_2 fullShare d) ∗ others0 (F := F) c) ∗ (∃ r, prngReg c r)) := by
  unfold Pipeline.ΦA others0; rw [scopedRest0_eq]; simp only [scM0_0, scM0_1, scM0_2, owns_whole]; try rfl

end Cert.Kernel.Hand

end
-- ==== Proof.Bits.R0RunA.lean ====
import proofs.«431482_j82446192214711_2_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S256x1 .i32) (harg2 : arg2.IsWhole) (arg3 : Memref sig .tc .vmem S256x6400 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (x0 : Vec F S256x1 .i32) (x1 : Vec F S256x6400 .f32)

set_option maxHeartbeats 1000000 in
/-- ci = 0: whatever the three columns held, they end one step from the restart values (-inf, 0, 0). -/
theorem body0_A (hc0 : cond0_0 i) (hc1 : ¬cond0_1 i) (xi2 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare xi2
            ∗ owns (c : Thread nD τ) arg5 fullShare (step0 i x0 x1 init0).1 ∗ owns (c : Thread nD τ) arg6 fullShare (step0 i x0 x1 init0).2.1 ∗ owns (c : Thread nD τ) arg7 fullShare (step0 i x0 x1 init0).2.2) -∗ K ⟨⟩))
      ⊢ wp frame (wpE (defs₀ (F := F)) Variants.none c none) E (cc0__ce_kernel i arg2 harg2 arg3 harg3 arg4 harg4 arg5 harg5 arg6 harg6 arg7 harg7) K := by
  simp only [cc0__ce_kernel_eq_skeleton]; unfold cc0__ce_kernel_skel
  simp only [k0_part1_eq_skeleton]
  unfold owns
  iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2
  sl_exec (disch := first | exact hc0 | exact hc1)
  sl_step
  iapply Hk
  isplitl [H0]; iexists _; isplitr; swap; iexact H0; ipureintro; rotate_left
  isplitl [H1]; iexists _; isplitr; swap; iexact H1; ipureintro; rotate_left
  isplitl [H2]; iexists _; isplitr; swap; iexact H2; ipureintro; rotate_left
  isplitl [HS0]; iexists _; isplitr; swap; iexact HS0; ipureintro; rotate_left
  isplitl [HS1]; iexists _; isplitr; swap; iexact HS1; ipureintro; rotate_left
  iexists _; isplitr; swap; iexact HS2; ipureintro
  all_goals first
    | exact Memref.IsWhole.read_unread ‹_› _
    | refine (View.read_writes_eq_canon _ _ _ (View.cover_of_tiledL _ S256x1.size (by sl_kernel_rfl))).trans ?_
      sl_unfold_words
      rw [View.canon_cons_unit_zero (S := S256x1) hz2_0]
      simp only [View.readAt_eq_ld, harg2.read_unread, harg3.read_unread, harg5.read_unread, harg6.read_unread, harg7.read_unread,
        View.ld_unit_zero (S := S256x6400) hz2_0, View.ld_unit_zero (S := S256x1) hz2_0, View.readCov_unit_zero (S := S256x1) _ hz2_0]
      first | done | rfl

end Cert.Kernel.Hand

end
-- ==== Proof.Bits.R0RunB.lean ====
import proofs.«431482_j82446192214711_2_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S256x1 .i32) (harg2 : arg2.IsWhole) (arg3 : Memref sig .tc .vmem S256x6400 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (x0 : Vec F S256x1 .i32) (x1 : Vec F S256x6400 .f32)

set_option maxHeartbeats 1000000 in
/-- 0 < ci < 4: the three columns advance one step from what they held. -/
theorem body0_B (s : St0 F) (hc0 : ¬cond0_0 i) (hc1 : ¬cond0_1 i) (xi2 : Vec F S256x1 .f32) (E : Set ℕ) (K : PUnit → sProp 𝕄) :
    iprop(owns (c : Thread nD τ) arg2 fullShare x0 ∗ owns (c : Thread nD τ) arg3 fullShare x1 ∗ owns (c : Thread nD τ) arg4 fullShare xi2
        ∗ owns (c : Thread nD τ) arg5 fullShare s.1 ∗ owns (c : Thread nD τ) arg6 fullShare s.2.1 ∗ owns (c : Thread nD τ) arg7 fullShare s.2.2
        ∗ (iprop(owns (c : Thread nD τ) arg2 fullShare x0 ∗ owns (c : Thread nD τ) arg3 fullShare x1 ∗ owns (c : Thread nD τ) arg4 fullShare xi2
            ∗ owns (c : Thread nD τ) arg5 fullShare (step0 i x0 x1 s).1 ∗ owns (c : Thread nD τ) arg6 fullShare (step0 i x0 x1 s).2.1 ∗ owns (c : Thread nD τ) arg7 fullShare (step0 i x0 x1 s).2.2) -∗ K ⟨⟩))
      ⊢ wp frame (wpE (defs₀ (F := F)) Variants.none c none) E (cc0__ce_kernel i arg2 harg2 arg3 harg3 arg4 harg4 arg5 harg5 arg6 harg6 arg7 harg7) K := by
  simp only [cc0__ce_kernel_eq_skeleton]; unfold cc0__ce_kernel_skel
  simp only [k0_part1_eq_skeleton]
  unfold owns
  iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hfs0; obtain rfl := harg6.eq_unread hfs1; obtain rfl := harg7.eq_unread hfs2
  sl_exec (disch := first | exact hc0 | exact hc1)
  sl_step
  iapply Hk
  isplitl [H0]; iexists _; isplitr; swap; iexact H0; ipureintro; rotate_left
  isplitl [H1]; iexists _; isplitr; swap; iexact H1; ipureintro; rotate_left
  isplitl [H2]; iexists _; isplitr; swap; iexact H2; ipureintro; rotate_left
  isplitl [HS0]; iexists _; isplitr; swap; iexact HS0; ipureintro; rotate_left
  isplitl [HS1]; iexists _; isplitr; swap; iexact HS1; ipureintro; rotate_left
  iexists _; isplitr; swap; iexact HS2; ipureintro
  all_goals first
    | exact Memref.IsWhole.read_unread ‹_› _
    | refine (View.read_writes_eq_canon _ _ _ (View.cover_of_tiledL _ S256x1.size (by sl_kernel_rfl))).trans ?_
      sl_unfold_words
      rw [View.canon_cons_unit_zero (S := S256x1) hz2_0]
      simp only [View.readAt_eq_ld, harg2.read_unread, harg3.read_unread, harg5.read_unread, harg6.read_unread, harg7.read_unread,
        View.ld_unit_zero (S := S256x6400) hz2_0, View.ld_unit_zero (S := S256x1) hz2_0, View.readCov_unit_zero (S := S256x1) _ hz2_0]
      first | done | rfl

end Cert.Kernel.Hand

end
-- ==== Proof.Bits.R0RunC.lean ====
import proofs.«431482_j82446192214711_2_alg».proof.Proof.Bits.R0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid0.Coords) (arg2 : Memref sig .tc .vmem S256x1 .i32) (harg2 : arg2.IsWhole) (arg3 : Memref sig .tc .vmem S256x6400 .f32) (harg3 : arg3.IsWhole) (arg4 : Memref sig .tc .vmem S256x1 .f32) (harg4 : arg4.IsWhole) (arg5 : Memref sig .tc .vmem S256x1 .f32) (harg5 : arg5.IsWhole) (arg6 : Memref sig .tc .vmem S256x1 .f32) (harg6 : arg6.IsWhole) (arg7 : Memref sig .tc .vmem S256x1 .f32) (harg7 : arg7.IsWhole) (x0 : Vec F S256x1 .i32) (x1 : Vec F S256x6400 .f32)

set_option maxHeartbeats 1000000 in
/-- ci = 4: the three columns advance one step, and the output block takes (max + log sum) - picked of the new columns. -/
theorem body0_C (s : St0 F) (hc0 : ¬cond0_0 i) (hc1 : cond0_1 i) (E : Set ℕ) (K : PUnit → sProp 𝕄) :
    iprop(owns (c : Thread nD τ) arg2 fullShare x0 ∗ owns (c : Thread nD τ) arg3 fullShare x1 ∗ (∃ d, owns (c : Thread nD τ) arg4 fullShare d)
        ∗ owns (c : Thread nD τ) arg5 fullShare s.1 ∗ owns (c : Thread nD τ) arg6 fullShare s.2.1 ∗ owns (c : Thread nD τ) arg7 fullShare s.2.2
        ∗ (iprop(owns (c : Thread nD τ) arg2 fullShare x0 ∗ owns (c : Thread nD τ) arg3 fullShare x1 ∗ owns (c : Thread nD τ) arg4 fullShare (k0_pay3 (step0 i x0 x1 s).1 (step0 i x0 x1 s).2.1 (step0 i x0 x1 s).2.2)
            ∗ owns (c : Thread nD τ) arg5 fullShare (step0 i x0 x1 s).1 ∗ owns (c : Thread nD τ) arg6 fullShare (step0 i x0 x1 s).2.1 ∗ owns (c : Thread nD τ) arg7 fullShare (step0 i x0 x1 s).2.2) -∗ K ⟨⟩))
      ⊢ wp frame (wpE (defs₀ (F := F)) Variants.none c none) E (cc0__ce_kernel i arg2 harg2 arg3 harg3 arg4 harg4 arg5 harg5 arg6 harg6 arg7 harg7) K := by
  simp only [cc0__ce_kernel_eq_skeleton]; unfold cc0__ce_kernel_skel
  simp only [k0_part1_eq_skeleton]
  unfold owns
  iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg5.eq_unread hfs0; obtain rfl := harg6.eq_unread hfs1; obtain rfl := harg7.eq_unread hfs2
  sl_exec (disch := first | exact hc0 | exact hc1)
  sl_step
  iapply Hk
  isplitl [H0]; iexists _; isplitr; swap; iexact H0; ipureintro; rotate_left
  isplitl [H1]; iexists _; isplitr; swap; iexact H1; ipureintro; rotate_left
  isplitl [H2]; iexists _; isplitr; swap; iexact H2; ipureintro; rotate_left
  isplitl [HS0]; iexists _; isplitr; swap; iexact HS0; ipureintro; rotate_left
  isplitl [HS1]; iexists _; isplitr; swap; iexact HS1; ipureintro; rotate_left
  iexists _; isplitr; swap; iexact HS2; ipureintro
  all_goals first
    | exact Memref.IsWhole.read_unread ‹_› _
    | refine (View.read_writes_eq_canon _ _ _ (View.cover_of_tiledL _ S256x1.size (by sl_kernel_rfl))).trans ?_
      sl_unfold_words
      rw [View.canon_cons_unit_zero (S := S256x1) hz2_0]
      simp only [View.readAt_eq_ld, harg2.read_unread, harg3.read_unread, harg5.read_unread, harg6.read_unread, harg7.read_unread,
        View.ld_unit_zero (S := S256x6400) hz2_0, View.ld_unit_zero (S := S256x1) hz2_0, View.readCov_unit_zero (S := S256x1) _ hz2_0]
      first | done | rfl

end Cert.Kernel.Hand

end
-- ==== Proof.Bits.R0Body.lean ====
import proofs.«431482_j82446192214711_2_alg».proof.Proof.Bits.R0RunA
import proofs.«431482_j82446192214711_2_alg».proof.Proof.Bits.R0RunB
import proofs.«431482_j82446192214711_2_alg».proof.Proof.Bits.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem PhiS0_succ (c : Dev nD) (n : ℕ) (hn : n < cfg0.N) :
    PhiS0 V c (n + 1) hn = iprop(owns (c : Thread nD τ) scM0_0 fullShare (st0 V c n hn).1 ∗ owns (c : Thread nD τ) scM0_1 fullShare (st0 V c n hn).2.1
      ∗ owns (c : Thread nD τ) scM0_2 fullShare (st0 V c n hn).2.2 ∗ others0 c ∗ (∃ r, prngReg c r)) := rfl

theorem PhiS0_pos (c : Dev nD) (n : ℕ) (h : n ≤ cfg0.N) (hz : n ≠ 0) :
    PhiS0 V c n h = iprop(owns (c : Thread nD τ) scM0_0 fullShare (st0 V c (n - 1) (by omega)).1 ∗ owns (c : Thread nD τ) scM0_1 fullShare (st0 V c (n - 1) (by omega)).2.1
      ∗ owns (c : Thread nD τ) scM0_2 fullShare (st0 V c (n - 1) (by omega)).2.2 ∗ others0 c ∗ (∃ r, prngReg c r)) := by
  cases n with
  | zero => exact absurd rfl hz
  | succ n => rfl

/-- At every position the invariant holds the three columns at some contents. -/
theorem PhiS0_weak (c : Dev nD) (n : ℕ) (h : n ≤ cfg0.N) :
    PhiS0 V c n h ⊢ iprop((∃ d, owns (c : Thread nD τ) scM0_0 fullShare d) ∗ (∃ d, owns (c : Thread nD τ) scM0_1 fullShare d)
      ∗ (∃ d, owns (c : Thread nD τ) scM0_2 fullShare d) ∗ others0 (F := F) c ∗ (∃ r, prngReg c r)) := by
  cases n with
  | zero =>
    rw [show PhiS0 V c 0 h = Pipeline.ΦA spec0 c from rfl, PhiA0_eq]
    iintro ⟨⟨HS0, HS1, HS2, Hot⟩, Hg⟩; iframe
  | succ n =>
    rw [PhiS0_succ]
    iintro ⟨HS0, HS1, HS2, Hot, Hg⟩; iframe Hot Hg
    isplitl [HS0]; · iexists _; iexact HS0
    isplitl [HS1]; · iexists _; iexact HS1
    iexists _; iexact HS2

theorem PhiS0_castSucc (c : Dev nD) (t : Fin cfg0.N) :
    (dat0 V c).Φ t.castSucc = PhiS0 V c t.val (Nat.le_of_lt t.isLt) := by
  dsimp only [dat0]; simp only [Fin.coe_castSucc]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4000000 in
/-- The body at any point: t % 5 says which of the three cases it is; the columns go in as the point before left them
    (as anything where they restart) and come out one step on (`st0_eq_step`); the output block is written at t % 5 = 4 only. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    show (dat0 V c).Φ t.succ = PhiS0 V c (t.val + 1) t.isLt from rfl, PhiS0_succ,
    show (dat0 V c).leavesExact 0 t = owns (c : Thread nD τ) (ms0_0 t) fullShare ((dat0 V c).after 0 t) from by
      unfold Dat.leavesExact; rw [liveAt0_0 t], after0_0,
    show (dat0 V c).leavesExact 1 t = owns (c : Thread nD τ) (ms0_1 t) fullShare ((dat0 V c).after 1 t) from by
      unfold Dat.leavesExact; rw [liveAt0_1 t], after0_1]
  have hN : t.val < 80 := lt_of_lt_of_eq t.isLt N_0
  by_cases h4 : t.val % 5 = 4
  · have h0 : ¬t.val % 5 = 0 := by omega
    have hc0 : ¬cond0_0 (grid0.coords t) := fun h => h0 ((hcond0_0 t).mp h)
    have hc1 : cond0_1 (grid0.coords t) := (hcond0_1 t).mpr h4
    have hp : prev0 V c t = (st0 V c (t.val - 1) (Nat.lt_of_le_of_lt (Nat.sub_le _ _) t.isLt)) := by unfold prev0; rw [dif_neg h0]
    rw [show (dat0 V c).leavesExact 2 t = owns (c : Thread nD τ) (ms0_2 t) fullShare ((dat0 V c).after 2 t) from by
      unfold Dat.leavesExact; rw [liveAt0_2 t hc1], after0_2]
    unfold out0
    rw [st0_eq_step V c t, hp, PhiS0_castSucc V c t, PhiS0_pos V c _ _ (by omega)]
    iintro ⟨⟨HS0, HS1, HS2, Hot, Hg⟩, Ho, ⟨%d0, H0⟩, ⟨%d1, H1⟩, ⟨%d2, H2⟩⟩
    iapply (body0_C c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk0 V c 0 t) (iblk0 V c 1 t) (st0 V c (t.val - 1) (Nat.lt_of_le_of_lt (Nat.sub_le _ _) t.isLt)) hc0 hc1 Set.univ _)
    iframe H0 H1 HS0 HS1 HS2
    isplitl [H2]; · iexists _; iexact H2
    iintro ⟨H0, H1, H2, HS0, HS1, HS2⟩
    iframe
  · have hc1 : ¬cond0_1 (grid0.coords t) := fun h => h4 ((hcond0_1 t).mp h)
    rw [Dat.leavesExact_idle (dat0 V c) 2 t (idleAt0_2 t hc1) (noFlush0_2 t hc1), st0_eq_step V c t, PhiS0_castSucc V c t]
    by_cases h0 : t.val % 5 = 0
    · have hc0 : cond0_0 (grid0.coords t) := (hcond0_0 t).mpr h0
      rw [show prev0 V c t = init0 from by unfold prev0; rw [dif_pos h0]]
      iintro ⟨HΦ, Ho, ⟨%d0, H0⟩, ⟨%d1, H1⟩, ⟨%d2, H2⟩⟩
      ihave HΦ' := (PhiS0_weak V c _ _) $$ HΦ
      icases HΦ' with ⟨HS0, HS1, HS2, Hot, Hg⟩
      iapply (body0_A c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk0 V c 0 t) (iblk0 V c 1 t) hc0 hc1 ((dat0 V c).before 2 t d2) Set.univ _)
      iframe H0 H1 H2 HS0 HS1 HS2
      iintro ⟨H0, H1, H2, HS0, HS1, HS2⟩
      iframe H0 H1 HS0 HS1 HS2 Hot Hg Ho
      iexists _; iexact H2
    · have hc0 : ¬cond0_0 (grid0.coords t) := fun h => h0 ((hcond0_0 t).mp h)
      rw [show prev0 V c t = (st0 V c (t.val - 1) (Nat.lt_of_le_of_lt (Nat.sub_le _ _) t.isLt)) from by unfold prev0; rw [dif_neg h0],
        PhiS0_pos V c _ _ (by omega)]
      iintro ⟨⟨HS0, HS1, HS2, Hot, Hg⟩, Ho, ⟨%d0, H0⟩, ⟨%d1, H1⟩, ⟨%d2, H2⟩⟩
      iapply (body0_B c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (iblk0 V c 0 t) (iblk0 V c 1 t) (st0 V c (t.val - 1) (Nat.lt_of_le_of_lt (Nat.sub_le _ _) t.isLt)) hc0 hc1 ((dat0 V c).before 2 t d2) Set.univ _)
      iframe H0 H1 H2 HS0 HS1 HS2
      iintro ⟨H0, H1, H2, HS0, HS1, HS2⟩
      iframe H0 H1 HS0 HS1 HS2 Hot Hg Ho
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := .rfl

/-- After the last point the columns' contents are forgotten. -/
theorem hout0 (c : Dev nD) : (dat0 V c).Φ (Fin.last cfg0.N) ⊢ Pipeline.ΦA spec0 c := by
  refine BIBase.Entails.trans (show (dat0 V c).Φ (Fin.last cfg0.N) ⊢ _ from PhiS0_weak V c (Fin.last cfg0.N).val (Nat.le_of_lt_succ (Fin.last cfg0.N).isLt)) ?_
  rw [PhiA0_eq]
  iintro ⟨HS0, HS1, HS2, Hot, Hg⟩; iframe

end Cert.Kernel.Hand

end
-- ==== Proof.Bits.R1Runs.lean ====
import proofs.«431482_j82446192214711_2_alg».proof.Proof.Bits.R1Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz2 : (![0, 0] : Fin 2 → Nat) = fun _ => 0 := by funext a; fin_cases a <;> rfl

/-- j = 0, as the body computes it: exactly the points with t % 8 = 0. -/
abbrev cond1_0 (i : grid1.Coords) : Prop :=
  (Scalar.cmpi .ne (Scalar.extui (Scalar.cmpi .eq (BitVec.ofNat 32 (i 1).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

abbrev cond1_1 (i : grid1.Coords) : Prop :=
  (Scalar.cmpi .ne (Scalar.extui (Scalar.cmpi .eq (BitVec.ofNat 32 (i 0).val) (BitVec.ofNat 32 (i 1).val))) 0#32) = 1#1

abbrev cond1_2 (i : grid1.Coords) : Prop :=
  (Scalar.cmpi .ne (Scalar.extui (Scalar.cmpi .ne (BitVec.ofNat 32 (i 0).val) (BitVec.ofNat 32 (i 1).val))) 0#32) = 1#1

/-- The body's two tests "i = j" and "i ≠ j" agree with the coordinates: a point is on the diagonal or off it. -/
abbrev Diag1 (i : grid1.Coords) : Prop :=
  (cond1_1 i ∧ ¬cond1_2 i ∧ (i 0).val = (i 1).val) ∨ (¬cond1_1 i ∧ cond1_2 i ∧ ¬(i 0).val = (i 1).val)
theorem diag1 : ∀ t : Fin cfg1.N, Diag1 (grid1.coords t) := (by decide +kernel : ∀ t : Fin grid1.N, Diag1 (grid1.coords t))

/-- j = 7, as the body computes it: exactly the points with t % 8 = 7. -/
abbrev cond1_3 (i : grid1.Coords) : Prop := k1_cond4 i = 1#1
theorem hcond1_3 : ∀ t : Fin cfg1.N, cond1_3 (grid1.coords t) ↔ t.val % 8 = 7 :=
  (by decide +kernel : ∀ t : Fin grid1.N, cond1_3 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl

theorem idleAt1_4 : ∀ t : Fin cfg1.N, ¬cond1_3 (grid1.coords t) → cfg1.idle 4 (grid1.coords t) = true := by decide +kernel
theorem noFlush1_4 : ∀ t : Fin cfg1.N, ¬cond1_3 (grid1.coords t) → (cfg1.win 4).flush t = false := by decide +kernel

theorem liveAt1_4 : ∀ t : Fin cfg1.N, cond1_3 (grid1.coords t) → cfg1.idle 4 (grid1.coords t) = false := by decide +kernel

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)

theorem PhiA1_split (c : Dev nD) :
    (Pipeline.ΦA spec1 c : sProp 𝕄)
      ⊢ iprop((∃ d, owns (c : Thread nD τ) scM1_0 fullShare d) ∗ others1 c ∗ (∃ r, prngReg c r)) := by
  unfold Pipeline.ΦA others1; rw [scopedRest1_eq]; simp only [scM1_0, owns_whole]
  iintro ⟨⟨A0, A1, A2, A3, A4, A5, A6, A7, A8, S⟩, P⟩; iframe

theorem PhiA1_join (c : Dev nD) :
    iprop((∃ d, owns (c : Thread nD τ) scM1_0 fullShare d) ∗ others1 c ∗ (∃ r, prngReg c r))
      ⊢ (Pipeline.ΦA spec1 c : sProp 𝕄) := by
  unfold Pipeline.ΦA others1; rw [scopedRest1_eq]; simp only [scM1_0, owns_whole]
  iintro ⟨S, ⟨A0, A1, A2, A3, A4, A5, A6, A7, A8⟩, P⟩; iframe

end Cert.Kernel.Hand

end
-- ==== Proof.Bits.R1RunA.lean ====
import proofs.«431482_j82446192214711_2_alg».proof.Proof.Bits.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole)
variable (x0 : Vec F S512x1024 .bf16) (x1 : Vec F S4096x1024 .bf16) (x2 : Vec F S512x1 .f32) (x3 : Vec F S1x512 .f32)

set_option maxHeartbeats 1000000 in
/-- j = 0: whatever the column held, it ends one step from zero. -/
theorem body1_A (hc0 : cond1_0 i) (hd : Diag1 i) (hc3 : ¬cond1_3 i) (xi4 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step1 i x0 x1 x2 x3 k1_pay1)) -∗ K ⟨⟩))
      ⊢ wp frame (wpE (defs₀ (F := F)) Variants.none c none) E (cc1__contrastive_kernel i arg2 harg2 arg3 harg3 arg4 harg4 arg5 harg5 arg6 harg6 arg7 harg7) K := by
  simp only [cc1__contrastive_kernel_eq_skeleton]; unfold cc1__contrastive_kernel_skel
  unfold owns
  iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4
  rcases hd with ⟨hc1, hc2, hd⟩ | ⟨hc1, hc2, hd⟩
  all_goals
    sl_exec (disch := first | exact hc0 | exact hc1 | exact hc2 | exact hc3)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    iexists _; isplitr; swap; iexact HS0; ipureintro
    all_goals first
      | exact Memref.IsWhole.read_unread ‹_› _
      | refine (View.read_writes_eq_canon _ _ _ (View.cover_of_tiledL _ S512x1.size (by sl_kernel_rfl))).trans ?_
        unfold step1; first | rw [if_pos hd] | rw [if_neg hd]
        sl_unfold_words
        rw [View.canon_cons_unit_zero (S := S512x1) hz2]
        simp only [View.readAt_eq_ld, harg2.read_unread, harg3.read_unread, harg4.read_unread, harg5.read_unread,
          View.ld_unit_zero (S := S512x1024) hz2, View.ld_unit_zero (S := S512x1) hz2, View.ld_unit_zero (S := S1x512) hz2,
          View.readCov_unit_zero (S := S512x1) _ hz2]
        first | done | rfl

end Cert.Kernel.Hand

end
-- ==== Proof.Bits.R1RunB.lean ====
import proofs.«431482_j82446192214711_2_alg».proof.Proof.Bits.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole)
variable (x0 : Vec F S512x1024 .bf16) (x1 : Vec F S4096x1024 .bf16) (x2 : Vec F S512x1 .f32) (x3 : Vec F S1x512 .f32) (xs0 : Vec F S512x1 .f32)

set_option maxHeartbeats 1000000 in
/-- 0 < j < 7: the column advances one step from what it held. -/
theorem body1_B (hc0 : ¬cond1_0 i) (hd : Diag1 i) (hc3 : ¬cond1_3 i) (xi4 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare (step1 i x0 x1 x2 x3 xs0)) -∗ K ⟨⟩))
      ⊢ wp frame (wpE (defs₀ (F := F)) Variants.none c none) E (cc1__contrastive_kernel i arg2 harg2 arg3 harg3 arg4 harg4 arg5 harg5 arg6 harg6 arg7 harg7) K := by
  simp only [cc1__contrastive_kernel_eq_skeleton]; unfold cc1__contrastive_kernel_skel
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hfs0
  rcases hd with ⟨hc1, hc2, hd⟩ | ⟨hc1, hc2, hd⟩
  all_goals
    sl_exec (disch := first | exact hc0 | exact hc1 | exact hc2 | exact hc3)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    iexists _; isplitr; swap; iexact HS0; ipureintro
    all_goals first
      | exact Memref.IsWhole.read_unread ‹_› _
      | refine (View.read_writes_eq_canon _ _ _ (View.cover_of_tiledL _ S512x1.size (by sl_kernel_rfl))).trans ?_
        unfold step1; first | rw [if_pos hd] | rw [if_neg hd]
        sl_unfold_words
        rw [View.canon_cons_unit_zero (S := S512x1) hz2]
        simp only [View.readAt_eq_ld, harg2.read_unread, harg3.read_unread, harg4.read_unread, harg5.read_unread, harg7.read_unread,
          View.ld_unit_zero (S := S512x1024) hz2, View.ld_unit_zero (S := S512x1) hz2, View.ld_unit_zero (S := S1x512) hz2,
          View.readCov_unit_zero (S := S512x1) _ hz2]
        first | done | rfl

end Cert.Kernel.Hand

end
-- ==== Proof.Bits.R1RunC.lean ====
import proofs.«431482_j82446192214711_2_alg».proof.Proof.Bits.R1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (c : Dev nD) (i : grid1.Coords) (arg2 : Memref sig .tc .vmem S512x1024 .bf16) (harg2 : arg2.IsWhole) (arg3 : Memref sig .tc .vmem S4096x1024 .bf16) (harg3 : arg3.IsWhole) (arg4 : Memref sig .tc .vmem S512x1 .f32) (harg4 : arg4.IsWhole) (arg5 : Memref sig .tc .vmem S1x512 .f32) (harg5 : arg5.IsWhole) (arg6 : Memref sig .tc .vmem S512x1 .f32) (harg6 : arg6.IsWhole) (arg7 : Memref sig .tc .vmem S512x1 .f32) (harg7 : arg7.IsWhole)
variable (x0 : Vec F S512x1024 .bf16) (x1 : Vec F S4096x1024 .bf16) (x2 : Vec F S512x1 .f32) (x3 : Vec F S1x512 .f32) (xs0 : Vec F S512x1 .f32)

set_option maxHeartbeats 1000000 in
/-- j = 7: the column advances one step, and the output block takes the new column. -/
theorem body1_C (hc0 : ¬cond1_0 i) (hd : Diag1 i) (hc3 : cond1_3 i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (step1 i x0 x1 x2 x3 xs0) ∗ owns (c : Thread nD τ) arg7 fullShare (step1 i x0 x1 x2 x3 xs0)) -∗ K ⟨⟩))
      ⊢ wp frame (wpE (defs₀ (F := F)) Variants.none c none) E (cc1__contrastive_kernel i arg2 harg2 arg3 harg3 arg4 harg4 arg5 harg5 arg6 harg6 arg7 harg7) K := by
  simp only [cc1__contrastive_kernel_eq_skeleton]; unfold cc1__contrastive_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
  obtain rfl := harg2.eq_unread hf0; obtain rfl := harg3.eq_unread hf1; obtain rfl := harg4.eq_unread hf2; obtain rfl := harg5.eq_unread hf3; obtain rfl := harg7.eq_unread hfs0
  rcases hd with ⟨hc1, hc2, hd⟩ | ⟨hc1, hc2, hd⟩
  all_goals
    sl_exec (disch := first | exact hc0 | exact hc1 | exact hc2 | exact hc3)
    sl_step
    iapply Hk
    isplitl [H0]; iexists _; isplitr; swap; iexact H0; ipureintro; rotate_left
    isplitl [H1]; iexists _; isplitr; swap; iexact H1; ipureintro; rotate_left
    isplitl [H2]; iexists _; isplitr; swap; iexact H2; ipureintro; rotate_left
    isplitl [H3]; iexists _; isplitr; swap; iexact H3; ipureintro; rotate_left
    isplitl [H4]; iexists _; isplitr; swap; iexact H4; ipureintro; rotate_left
    iexists _; isplitr; swap; iexact HS0; ipureintro
    all_goals first
      | exact Memref.IsWhole.read_unread ‹_› _
      | refine (View.read_writes_eq_canon _ _ _ (View.cover_of_tiledL _ S512x1.size (by sl_kernel_rfl))).trans ?_
        unfold step1; first | rw [if_pos hd] | rw [if_neg hd]
        sl_unfold_words
        rw [View.canon_cons_unit_zero (S := S512x1) hz2]
        simp only [View.readAt_eq_ld, harg2.read_unread, harg3.read_unread, harg4.read_unread, harg5.read_unread, harg7.read_unread,
          View.ld_unit_zero (S := S512x1024) hz2, View.ld_unit_zero (S := S512x1) hz2, View.ld_unit_zero (S := S1x512) hz2,
          View.readCov_unit_zero (S := S512x1) _ hz2]
        first | done | rfl

end Cert.Kernel.Hand

end
-- ==== Proof.Bits.R1Body.lean ====
import proofs.«431482_j82446192214711_2_alg».proof.Proof.Bits.R1RunA
import proofs.«431482_j82446192214711_2_alg».proof.Proof.Bits.R1RunB
import proofs.«431482_j82446192214711_2_alg».proof.Proof.Bits.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem PhiS1_succ (c : Dev nD) (n : ℕ) (hn : n < cfg1.N) :
    PhiS1 V c (n + 1) hn = iprop(owns (c : Thread nD τ) scM1_0 fullShare (acc1 V c n hn) ∗ others1 c ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega)) ∗ others1 c ∗ (∃ r, prngReg c r)) := by
  cases n with
  | zero => exact absurd rfl hz
  | succ n => rfl

/-- At every position the invariant holds the column at some contents. -/
theorem PhiS1_weak (c : Dev nD) (n : ℕ) (h : n ≤ cfg1.N) :
    PhiS1 V c n h ⊢ iprop((∃ d, owns (c : Thread nD τ) scM1_0 fullShare d) ∗ others1 (F := F) c ∗ (∃ r, prngReg c r)) := by
  cases n with
  | zero => exact PhiA1_split c
  | succ n =>
    rw [PhiS1_succ]
    iintro ⟨HS, Hot, Hg⟩; iframe Hot Hg
    iexists _; iexact HS

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t)

set_option maxHeartbeats 4000000 in
/-- The body at any point: t % 8 says whether the column restarts, is carried, or is carried and stored; the column goes in
    as the point before left it (as anything where it restarts) and comes out one step on (`acc1_eq_step`). -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS1 V c (t.val + 1) t.isLt from rfl, PhiS1_succ,
    show (dat1 V c).leavesExact 0 t = owns (c : Thread nD τ) (ms1_0 t) fullShare ((dat1 V c).after 0 t) from by
      unfold Dat.leavesExact; rw [liveAt1_0 t], after1_0,
    show (dat1 V c).leavesExact 1 t = owns (c : Thread nD τ) (ms1_1 t) fullShare ((dat1 V c).after 1 t) from by
      unfold Dat.leavesExact; rw [liveAt1_1 t], after1_1,
    show (dat1 V c).leavesExact 2 t = owns (c : Thread nD τ) (ms1_2 t) fullShare ((dat1 V c).after 2 t) from by
      unfold Dat.leavesExact; rw [liveAt1_2 t], after1_2,
    show (dat1 V c).leavesExact 3 t = owns (c : Thread nD τ) (ms1_3 t) fullShare ((dat1 V c).after 3 t) from by
      unfold Dat.leavesExact; rw [liveAt1_3 t], after1_3]
  have hN : t.val < 64 := lt_of_lt_of_eq t.isLt N_1
  by_cases h7 : t.val % 8 = 7
  · have h0 : ¬t.val % 8 = 0 := by omega
    have hc0 : ¬cond1_0 (grid1.coords t) := fun h => h0 ((hcond1_0 t).mp h)
    have hc3 : cond1_3 (grid1.coords t) := (hcond1_3 t).mpr h7
    have hp : prev1 V c t = (acc1 V c (t.val - 1) (Nat.lt_of_le_of_lt (Nat.sub_le _ _) t.isLt)) := by unfold prev1; rw [dif_neg h0]
    rw [show (dat1 V c).leavesExact 4 t = owns (c : Thread nD τ) (ms1_4 t) fullShare ((dat1 V c).after 4 t) from by
      unfold Dat.leavesExact; rw [liveAt1_4 t hc3], after1_4]
    unfold out1
    rw [acc1_eq_step V c t, hp, PhiS1_castSucc V c t, PhiS1_pos V c _ _ (by omega)]
    iintro ⟨⟨HS, Hot, Hg⟩, Ho, ⟨%d0, H0⟩, ⟨%d1, H1⟩, ⟨%d2, H2⟩, ⟨%d3, H3⟩, ⟨%d4, H4⟩⟩
    iapply (body1_C c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (acc1 V c (t.val - 1) (Nat.lt_of_le_of_lt (Nat.sub_le _ _) t.isLt)) hc0 (diag1 t) hc3 Set.univ _)
    iframe H0 H1 H2 H3 HS
    isplitl [H4]; · iexists _; iexact H4
    iintro ⟨H0, H1, H2, H3, H4, HS⟩
    iframe
  · have hc3 : ¬cond1_3 (grid1.coords t) := fun h => h7 ((hcond1_3 t).mp h)
    rw [Dat.leavesExact_idle (dat1 V c) 4 t (idleAt1_4 t hc3) (noFlush1_4 t hc3), acc1_eq_step V c t, PhiS1_castSucc V c t]
    by_cases h0 : t.val % 8 = 0
    · have hc0 : cond1_0 (grid1.coords t) := (hcond1_0 t).mpr h0
      rw [show prev1 V c t = k1_pay1 from by unfold prev1; rw [dif_pos h0]]
      iintro ⟨HΦ, Ho, ⟨%d0, H0⟩, ⟨%d1, H1⟩, ⟨%d2, H2⟩, ⟨%d3, H3⟩, ⟨%d4, H4⟩⟩
      ihave HΦ' := (PhiS1_weak V c _ _) $$ HΦ
      icases HΦ' with ⟨HS, Hot, Hg⟩
      iapply (body1_A c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) hc0 (diag1 t) hc3 ((dat1 V c).before 4 t d4) Set.univ _)
      iframe H0 H1 H2 H3 H4 HS
      iintro ⟨H0, H1, H2, H3, H4, HS⟩
      iframe H0 H1 H2 H3 HS Hot Hg Ho
      iexists _; iexact H4
    · have hc0 : ¬cond1_0 (grid1.coords t) := fun h => h0 ((hcond1_0 t).mp h)
      rw [show prev1 V c t = (acc1 V c (t.val - 1) (Nat.lt_of_le_of_lt (Nat.sub_le _ _) t.isLt)) from by unfold prev1; rw [dif_neg h0], PhiS1_pos V c _ _ (by omega)]
      iintro ⟨⟨HS, Hot, Hg⟩, Ho, ⟨%d0, H0⟩, ⟨%d1, H1⟩, ⟨%d2, H2⟩, ⟨%d3, H3⟩, ⟨%d4, H4⟩⟩
      iapply (body1_B c (grid1.coords t) (ms1_0 t) (hs1_0 t) (ms1_1 t) (hs1_1 t) (ms1_2 t) (hs1_2 t) (ms1_3 t) (hs1_3 t) (ms1_4 t) (hs1_4 t) scM1_0 (Memref.isWhole_whole _) (iblk1 V c 0 t) (iblk1 V c 1 t) (iblk1 V c 2 t) (iblk1 V c 3 t) (acc1 V c (t.val - 1) (Nat.lt_of_le_of_lt (Nat.sub_le _ _) t.isLt)) hc0 (diag1 t) hc3 ((dat1 V c).before 4 t d4) Set.univ _)
      iframe H0 H1 H2 H3 H4 HS
      iintro ⟨H0, H1, H2, H3, H4, HS⟩
      iframe H0 H1 H2 H3 HS Hot Hg Ho
      iexists _; iexact H4

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := .rfl

/-- After the last point the column's contents are forgotten. -/
theorem hout1 (c : Dev nD) : (dat1 V c).Φ (Fin.last cfg1.N) ⊢ Pipeline.ΦA spec1 c :=
  BIBase.Entails.trans (show (dat1 V c).Φ (Fin.last cfg1.N) ⊢ _ from PhiS1_weak V c (Fin.last cfg1.N).val (Nat.le_of_lt_succ (Fin.last cfg1.N).isLt)) (PhiA1_join c)

end Cert.Kernel.Hand

end
-- ==== Proof.Bits.Launch.lean ====
import proofs.«431482_j82446192214711_2_alg».proof.Proof.Bits.Vals
import proofs.«431482_j82446192214711_2_alg».proof.Proof.Bits.R0Body
import proofs.«431482_j82446192214711_2_alg».proof.Proof.Bits.R1Body
import proofs.«431482_j82446192214711_2_alg».proof.Proof.Gen.Kernel.Regions
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

namespace Run

/-! Each item of @main leaves every buffer it does not write as it found it. -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ≠ main_v1) : W2 m c r = W1 m c r := by
  simp only [W2, Function.update_of_ne (StableHlo.devRef_ne_of_ne h : (Proc.devRef .tc r : DevRef τ sig) ≠ Proc.devRef .tc main_v1)]
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v10) : W4 m c r = W3 m c r := by
  simp only [W4, Function.update_of_ne (StableHlo.devRef_ne_of_ne h : (Proc.devRef .tc r : DevRef τ sig) ≠ Proc.devRef .tc main_v10)]
theorem W5_of (c : Dev nD) (r : Ref sig .tc) (h : r ∉ hostOps2_W) : W5 m c r = W4 m c r :=
  StableHlo.after_of_writes_sub hostOps2 _ hostOps2_writes h

abbrev V2 : (c : Dev nD) → (b : Ref sig .tc) → Buf (Elt F) ((c : Thread nD τ).loc b) := fun c b => W2 m c b

abbrev V4 : (c : Dev nD) → (b : Ref sig .tc) → Buf (Elt F) ((c : Thread nD τ).loc b) := fun c b => W4 m c b

/-- Both regions' proof data, each from the contents the region is entered with. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none

abbrev L : GSem nD τ sig → Finset Unit := fun _ => ∅
abbrev lv : GSem nD τ sig → Unit → ℕ := fun _ _ => 0

/-- What rides beside the buffers through every item: the random-number register at some state, and nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Region 0 ends with its output array at the folded write-backs and every other buffer as entered. -/
theorem hF0 (c : Dev nD) (w : Fin cfg0.W) : (dat0 (V1 m) c).arrAt w cfg0.N = V2 m c (Pipeline.arrRef spec0 w) := by
  match w with
  | ⟨0, _⟩ => exact (((dat0 (V1 m) c).arrAt_in 0 rfl _).trans (A_eq0 (V1 m) c 0)).trans (W2_of m c main_v0 (by decide)).symm
  | ⟨1, _⟩ => exact (((dat0 (V1 m) c).arrAt_in 1 rfl _).trans (A_eq0 (V1 m) c 1)).trans (W2_of m c main_arg0 (by decide)).symm
  | ⟨2, _⟩ => exact (Function.update_self (β := fun b : DevRef τ sig => Buf (Elt F) ((c : Thread nD τ).1, b)) (Proc.devRef .tc main_v1) (ce m c) (W1 m c)).symm
theorem hrest0 (c : Dev nD) : ∀ b, b ∉ Finset.univ.image (Pipeline.arrRef spec0) → V2 m c b = V1 m c b :=
  fun b hb => W2_of m c b fun e => hb (Finset.mem_image.mpr ⟨2, Finset.mem_univ _, e.symm⟩)

set_option backward.isDefEq.respectTransparency.types false in
/-- Region 0 from the contents W1 to W2: its arrays are split out of the buffers held and joined back at the exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine BIBase.Entails.trans ?_ (hin0 (V1 m) c)
    unfold Pipeline.ΦA
    iintro ⟨Hp, -, Hr⟩; iframe
  hout c := by
    rw [Pipeline.ownSems0_none]
    refine (hout0 (V1 m) c).trans ?_
    unfold Pipeline.ΦA
    iintro ⟨Hr, Hp⟩; iframe; iempintro
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]; · iapply hjoin; iframe
    isplitl [HY]; · iexact HY
    unfold Pipeline.Dat.owesAt Pipeline.owesWithin
    icases HO with ⟨%W, -, HO⟩; iexists W; iexact HO

theorem arrBufs1_eq (c : Dev nD) (G : (b : Ref sig .tc) → Buf (Elt F) ((c : Thread nD τ).loc b)) :
    (Pipeline.arrBufs (Ix := Unit) (Name := ℕ) (U := UR sig nD τ) (Lvl := ℕ) spec1 c G : sProp 𝕄)
      = iprop((((c : Thread nD τ).loc main_v9) ↦{fullShare} G main_v9) ∗ (((c : Thread nD τ).loc main_v7) ↦{fullShare} G main_v7)
          ∗ (((c : Thread nD τ).loc main_v8) ↦{fullShare} G main_v8) ∗ (((c : Thread nD τ).loc main_v10) ↦{fullShare} G main_v10)) := by
  unfold Pipeline.arrBufs
  exact bigSep_eq_bigSepL_of_eq [main_v9, main_v7, main_v8, main_v10] (by decide) (by decide) _

theorem arrays1_eq (c : Dev nD) (V : (c : Dev nD) → (b : Ref sig .tc) → Buf (Elt F) ((c : Thread nD τ).loc b))
    (Fw : (w : Fin cfg1.W) → Buf (Elt F) ((cfg1.win w).arr.view.loc (c.tc : Thread nD τ))) :
    (dat1 V c).arrays Fw
      = iprop((((c : Thread nD τ).loc main_v9) ↦{fullShare.left} Fw 0) ∗ (((c : Thread nD τ).loc main_v9) ↦{fullShare.right} Fw 1)
          ∗ (((c : Thread nD τ).loc main_v7) ↦{fullShare} Fw 2) ∗ (((c : Thread nD τ).loc main_v8) ↦{fullShare} Fw 3)
          ∗ (((c : Thread nD τ).loc main_v10) ↦{fullShare} Fw 4)) := by
  unfold Dat.arrays
  rw [bigSep_W1, (arr_whole1 0).set_eq_univ, (arr_whole1 2).set_eq_univ, (arr_whole1 3).set_eq_univ, (arr_whole1 4).set_eq_univ]
  rfl

/-- Two windows of region 1 read the feature array: its full share is dealt to them in halves at the entry, -/
theorem hsplit1 (c : Dev nD) (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c.tc : Thread nD τ)))
    (hF : ∀ w, Fw w = G (Pipeline.arrRef spec1 w)) :
    (Pipeline.arrBufs (Ix := Unit) (Name := ℕ) (U := UR sig nD τ) (Lvl := ℕ) spec1 c G : sProp 𝕄) ⊢ (dat1 V c).arrays Fw := by
  rw [arrBufs1_eq, arrays1_eq, hF 0, hF 1, hF 2, hF 3, hF 4]
  iintro ⟨H9, H7, H8, H10⟩
  ihave H9' := (pointsTo_share (PosShare.mem_left_op_right fullShare)).1 $$ H9
  icases H9' with ⟨H9l, H9r⟩; iframe

/-- and the halves, at equal contents, are joined again at the exit. -/
theorem hjoin1 (c : Dev nD) (V : (c : Dev nD) → (b : Ref sig .tc) → Buf (Elt F) ((c : Thread nD τ).loc b))
    (G : (b : Ref sig .tc) → Buf (Elt F) ((c : Thread nD τ).loc b))
    (Fw : (w : Fin cfg1.W) → Buf (Elt F) ((cfg1.win w).arr.view.loc (c.tc : Thread nD τ)))
    (hF : ∀ w, Fw w = G (Pipeline.arrRef spec1 w)) :
    (dat1 V c).arrays Fw ⊢ (Pipeline.arrBufs (Ix := Unit) (Name := ℕ) (U := UR sig nD τ) (Lvl := ℕ) spec1 c G : sProp 𝕄) := by
  rw [arrBufs1_eq, arrays1_eq, hF 0, hF 1, hF 2, hF 3, hF 4]
  iintro ⟨H9l, H9r, H7, H8, H10⟩
  iframe H7 H8 H10
  iapply (pointsTo_share (PosShare.mem_left_op_right fullShare)).2; iframe

theorem held_split1 (c : Dev nD) (W : Valuation τ sig (Elt F)) :
    (StableHlo.held (c : Thread nD τ) (Pipeline.ucRefs τ sig) W : sProp 𝕄)
      = iprop(Pipeline.arrBufs (Ix := Unit) (Name := ℕ) (U := UR sig nD τ) (Lvl := ℕ) spec1 c (fun b => W b)
          ∗ Pipeline.unscopedRest (Ix := Unit) (Name := ℕ) (U := UR sig nD τ) (Lvl := ℕ) spec1 c (fun b => W b)) := by
  rw [← Pipeline.unscopedBufs_held (Ix := Unit) (Name := ℕ) (U := UR sig nD τ) (Lvl := ℕ) c W]
  exact Pipeline.unscopedBufs_split₀ cfgs (1 : Fin 2) winFacts₀1.arr_unscoped c (fun b => W b)

theorem hF1 (c : Dev nD) (w : Fin cfg1.W) : (dat1 (V3 m) c).arrAt w cfg1.N = V4 m c (Pipeline.arrRef spec1 w) := by
  match w with
  | ⟨0, _⟩ => exact (((dat1 (V3 m) c).arrAt_in 0 rfl _).trans (A_eq1 (V3 m) c 0)).trans (W4_of m c main_v9 (by decide)).symm
  | ⟨1, _⟩ => exact (((dat1 (V3 m) c).arrAt_in 1 rfl _).trans (A_eq1 (V3 m) c 1)).trans (W4_of m c main_v9 (by decide)).symm
  | ⟨2, _⟩ => exact (((dat1 (V3 m) c).arrAt_in 2 rfl _).trans (A_eq1 (V3 m) c 2)).trans (W4_of m c main_v7 (by decide)).symm
  | ⟨3, _⟩ => exact (((dat1 (V3 m) c).arrAt_in 3 rfl _).trans (A_eq1 (V3 m) c 3)).trans (W4_of m c main_v8 (by decide)).symm
  | ⟨4, _⟩ => exact (Function.update_self (β := fun b : DevRef τ sig => Buf (Elt F) ((c : Thread nD τ).1, b)) (Proc.devRef .tc main_v10) (hg m c) (W3 m c)).symm
theorem hrest1 (c : Dev nD) : ∀ b, b ∉ Finset.univ.image (Pipeline.arrRef spec1) → V4 m c b = V3 m c b :=
  fun b hb => W4_of m c b fun e => hb (Finset.mem_image.mpr ⟨4, Finset.mem_univ _, e.symm⟩)

set_option backward.isDefEq.respectTransparency.types false in
/-- Region 1 from the contents W3 to W4. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none, held_split1]
    have hsplit := hsplit1 c (V3 m) (V3 m c) ((dat1 (V3 m) c).arrAt · 0) fun _ => rfl
    iintro ⟨⟨⟨Hab, Hrest⟩, Hp, HO⟩, -, -⟩
    ihave Ha := hsplit $$ Hab
    imodintro
    isplitl [Ha]; · iexact Ha
    iframe Hp Hrest
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl trivial
    iexact HO
  hin c := by
    refine BIBase.Entails.trans ?_ (hin1 (V3 m) c)
    unfold Pipeline.ΦA
    iintro ⟨Hp, -, Hr⟩; iframe
  hout c := by
    rw [Pipeline.ownSems0_none]
    refine (hout1 (V3 m) c).trans ?_
    unfold Pipeline.ΦA
    iintro ⟨Hr, Hp⟩; iframe; iempintro
  hexit c := by
    rw [held_split1]
    have hjoin := hjoin1 c (V3 m) (V4 m c) ((dat1 (V3 m) c).arrAt · cfg1.N) (hF1 m c)
    have hrest : (Pipeline.unscopedRest (Ix := Unit) (Name := ℕ) (U := UR sig nD τ) (Lvl := ℕ) spec1 c (V3 m c) : sProp 𝕄)
        = Pipeline.unscopedRest (Ix := Unit) (Name := ℕ) (U := UR sig nD τ) (Lvl := ℕ) spec1 c (V4 m c) := by
      unfold Pipeline.unscopedRest
      exact bigSep_congr fun b hb => by rw [hrest1 m c b (Finset.mem_sdiff.mp hb).2]
    rw [hrest]
    refine BIBase.Entails.trans (sep_mono hjoin .rfl) ?_
    iintro ⟨Hab, HO, HY, Hrest⟩
    imodintro
    isplitl [Hab Hrest]; · iframe
    isplitl [HY]; · iexact HY
    unfold Pipeline.Dat.owesAt Pipeline.owesWithin
    icases HO with ⟨%W, -, HO⟩; iexists W; iexact HO

/-- @main as five items: host stretch, region 0, host stretch, region 1, host stretch. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

abbrev Tₙ (c : Dev nD) : sProp 𝕄 := iprop(StableHlo.held (c : Thread nD τ) (Pipeline.ucRefs τ sig) (W5 m c) ∗ ∃ r, prngReg c r)

set_option backward.isDefEq.respectTransparency.types false in
/-- Every weakly fair execution terminates with each core's buffers at W5, the launch contents folded through the five items. -/
theorem run : θ_run defs (onTc (τ := τ) (main (F := F))) ⟨m, fun _ => 0, ρ⟩ (fun r => ∀ c : Dev nD,
    ∀ b ∈ Pipeline.ucRefs τ sig, r.2.mem ((c : Thread nD τ).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c =>
      show iprop(StableHlo.held (c : Thread nD τ) (Pipeline.ucRefs τ sig) (W5 m c) ∗ R c)
        ⊢ iprop(Tₙ m c ∗ ∃ W, owes (c.tc : Thread nD τ) (0 : CellTallies nD τ sig Unit) W) from by
      iintro ⟨Hh, Hp, HO⟩; iframe HO
      isplitl [Hh]; · iexact Hh
      iexact Hp⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- A reference no item writes ends as launched. -/
theorem W5_keeps (c : Dev nD) (r : Ref sig .tc) (h5 : r ∉ hostOps2_W) (h4 : r ≠ main_v10) (h3 : r ∉ hostOps1_W) (h2 : r ≠ main_v1)
    (h1 : r ∉ hostOps0_W) : W5 m c r = m ((c : Thread nD τ).loc r) :=
  (W5_of m c r h5).trans <| (W4_of m c r h4).trans <| (W3_of m c r h3).trans <| (W2_of m c r h2).trans <| (W1_of m c r h1).trans rfl

end Run

/-- The returned scalar's buffer ends at the fold's last contents, and every argument as launched. -/
theorem run_result : θ_run defs (onTc (τ := τ) (main (F := F))) ⟨m, fun _ => 0, ρ⟩ (fun r => ∀ c : Dev nD,
    r.2.mem ((c.tc : Thread nD τ).loc main_v14) = W5 m c main_v14
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c =>
    ⟨h c _ (Run.mem_uc main_v14 (by decide)),
     (h c _ (Run.mem_uc main_arg0 (by decide))).trans (Run.W5_keeps m c main_arg0 (by decide) (by decide) (by decide) (by decide) (by decide)),
     (h c _ (Run.mem_uc main_arg1 (by decide))).trans (Run.W5_keeps m c main_arg1 (by decide) (by decide) (by decide) (by decide) (by decide)),
     (h c _ (Run.mem_uc main_arg2 (by decide))).trans (Run.W5_keeps m c main_arg2 (by decide) (by decide) (by decide) (by decide) (by decide))⟩) (Run.run m ρ)

theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun r h c => (h c).2) (run_result m ρ)

end Cert.Kernel.Hand

end
-- ==== Proof.MathSpec.lean ====
import Idealize.ShloMosaic.PureOps.Ideal
import Idealize.ShloMosaic.Lib.ValueIdx

/-! The loss as one function of the three argument arrays over the extended reals: the mean over the rows of
    (max + log sum exp) - logit at the label, plus a tenth of the mean over the ordered pairs of distinct rows of the hinge of
    the cosine, the float literals kept as the words both programs share. -/

noncomputable section

open scoped BigOperators

namespace Cert.Spec

open Idealize.ShloMosaic Idealize.ShloMosaic.ValueIdx

/-- The inclusion of the reals commutes with finite sums. -/
theorem coe_sum {ι : Type*} (S : Finset ι) (a : ι → ℝ) : ((∑ c ∈ S, a c : ℝ) : EReal) = ∑ c ∈ S, (a c : EReal) := by
  classical
  induction S using Finset.induction_on with
  | empty => simp
  | insert c S hc ih => rw [Finset.sum_insert hc, Finset.sum_insert hc, EReal.coe_add, ih]

theorem ofBits_neg_inf : Ideal.ofBits .f32 0xFF800000#32 = ⊥ := by simp [Ideal.ofBits, Ideal.ieee]

abbrev SX : Shape := ⟨2, ![4096, 32000]⟩
abbrev SFt : Shape := ⟨2, ![4096, 1024]⟩

def rowMax (x : SX.Idx → EReal) (r : Fin 4096) : EReal := Finset.univ.sup fun c : Fin 32000 => x (ix2 r c)

def rowSumExp (x : SX.Idx → EReal) (r : Fin 4096) : EReal := ∑ c : Fin 32000, Ideal.exp (x (ix2 r c) - rowMax x r)

def picked (x : SX.Idx → EReal) (lab : Fin 4096 → BitVec 32) (r : Fin 4096) : EReal :=
  if h : (lab r).toNat < 32000 then x (ix2 r ⟨(lab r).toNat, h⟩) else 0

def ceRow (x : SX.Idx → EReal) (lab : Fin 4096 → BitVec 32) (r : Fin 4096) : EReal :=
  (rowMax x r + Ideal.log (rowSumExp x r)) - picked x lab r

def gram (f : SFt.Idx → EReal) (r s : Fin 4096) : EReal := ∑ k : Fin 1024, f (ix2 r k) * f (ix2 s k)

def norm (f : SFt.Idx → EReal) (r : Fin 4096) : EReal := Ideal.sqrt (∑ k : Fin 1024, f (ix2 r k) * f (ix2 r k))

abbrev epsC : EReal := Ideal.ofBits .f32 0x322BCC77#32
abbrev c4096 : EReal := Ideal.ofBits .f32 0x45800000#32
abbrev cPairs : EReal := Ideal.ofBits .f32 0x4B7FF000#32
abbrev cAlpha : EReal := Ideal.ofBits .f32 0x3DCCCCCD#32

def hinge (g : Fin 4096 → Fin 4096 → EReal) (nc nr : Fin 4096 → EReal) (r s : Fin 4096) : EReal :=
  max (Ideal.div (g r s) (max (nc r * nr s) epsC) - 0) 0

def hingeRow (g : Fin 4096 → Fin 4096 → EReal) (nc nr : Fin 4096 → EReal) (r : Fin 4096) : EReal :=
  ∑ s : Fin 4096, if r ≠ s then hinge g nc nr r s else 0

def total (x : SX.Idx → EReal) (lab : Fin 4096 → BitVec 32) (f : SFt.Idx → EReal) : EReal :=
  Ideal.div (∑ r : Fin 4096, ceRow x lab r) c4096
    + cAlpha * Ideal.div (∑ r : Fin 4096, hingeRow (gram f) (norm f) (norm f) r) cPairs

structure Ok (x : SX.Idx → EReal) (lab : Fin 4096 → BitVec 32) (f : SFt.Idx → EReal) : Prop where
  finX : ∀ i, ∃ a : ℝ, x i = (a : EReal)
  finF : ∀ i, ∃ a : ℝ, f i = (a : EReal)
  labLt : ∀ r, (lab r).toNat < 32000

end Cert.Spec

end
-- ==== Proof.Value0a.lean ====
import proofs.«431482_j82446192214711_2_alg».proof.Proof.MathSpec

/-! The online log-sum-exp of one row cut into five tiles of 6400 columns: the running maximum is a maximum of maxima;
    for real numbers exp (a - m) * exp (m - m') = exp (a - m'), so rescaling the old sum re-bases it on the new maximum;
    the picked sum has at most one non-zero term. -/

noncomputable section

open scoped BigOperators

namespace Cert.KernelIdeal.Hand.CE

open Idealize.ShloMosaic
open Cert.Spec (coe_sum)

def colsLt (n : ℕ) : Finset (Fin 32000) := Finset.univ.filter fun c => c.val < n

def tileCol (k : Fin 5) (q : Fin 6400) : Fin 32000 := ⟨6400 * k.val + q.val, by omega⟩

def tile (k : Fin 5) : Finset (Fin 32000) := Finset.univ.image (tileCol k)

theorem tileCol_val (k : Fin 5) (q : Fin 6400) : (tileCol k q).val = 6400 * k.val + q.val := rfl

theorem tileCol_injective (k : Fin 5) : Function.Injective (tileCol k) := fun q q' h => by
  have := congrArg Fin.val h
  simp only [tileCol_val] at this
  exact Fin.ext (by omega)

theorem mem_colsLt {n : ℕ} {c : Fin 32000} : c ∈ colsLt n ↔ c.val < n := by
  simp [colsLt]

theorem mem_tile {k : Fin 5} {c : Fin 32000} : c ∈ tile k ↔ 6400 * k.val ≤ c.val ∧ c.val < 6400 * k.val + 6400 := by
  constructor
  · intro h
    obtain ⟨q, _, rfl⟩ := Finset.mem_image.mp h
    rw [tileCol_val]; omega
  · rintro ⟨h1, h2⟩
    exact Finset.mem_image.mpr ⟨⟨c.val - 6400 * k.val, by omega⟩, Finset.mem_univ _, Fin.ext (by rw [tileCol_val]; show 6400 * k.val + (c.val - 6400 * k.val) = c.val; omega)⟩

theorem colsLt_zero : colsLt 0 = ∅ := by
  ext c; simp [mem_colsLt]

theorem colsLt_all : colsLt 32000 = Finset.univ := by
  ext c; simp [mem_colsLt]

theorem colsLt_succ (k : Fin 5) : colsLt (6400 * (k.val + 1)) = colsLt (6400 * k.val) ∪ tile k := by
  ext c
  rw [Finset.mem_union, mem_colsLt, mem_colsLt, mem_tile]
  omega

theorem disjoint_colsLt_tile (k : Fin 5) : Disjoint (colsLt (6400 * k.val)) (tile k) := by
  rw [Finset.disjoint_left]
  intro c h1 h2
  rw [mem_colsLt] at h1
  rw [mem_tile] at h2
  omega

theorem tile_nonempty (k : Fin 5) : (tile k).Nonempty :=
  ⟨tileCol k ⟨0, by omega⟩, Finset.mem_image.mpr ⟨_, Finset.mem_univ _, rfl⟩⟩

theorem sum_tile {M : Type*} [AddCommMonoid M] (k : Fin 5) (f : Fin 32000 → M) :
    ∑ c ∈ tile k, f c = ∑ q : Fin 6400, f (tileCol k q) :=
  Finset.sum_image fun x _ y _ h => tileCol_injective k h

theorem sup_tile (k : Fin 5) (f : Fin 32000 → EReal) :
    (tile k).sup f = Finset.univ.sup fun q : Fin 6400 => f (tileCol k q) :=
  Finset.sup_image _ _ _

theorem sup_real {ι : Type*} (S : Finset ι) (hS : S.Nonempty) (g : ι → EReal) (hg : ∀ c ∈ S, ∃ a : ℝ, g c = (a : EReal)) :
    ∃ a : ℝ, S.sup g = (a : EReal) := by
  obtain ⟨i, hi, e⟩ := Finset.exists_mem_eq_sup S hS g
  obtain ⟨a, ha⟩ := hg i hi
  exact ⟨a, e.trans ha⟩

/-- exp (a - m) * exp (m - m') = exp (a - m') for reals, summed. -/
theorem rebase {ι : Type*} (S : Finset ι) (a : ι → ℝ) (m m' : ℝ) :
    (∑ c ∈ S, Ideal.exp ((a c : EReal) - (m : EReal))) * Ideal.exp ((m : EReal) - (m' : EReal))
      = ∑ c ∈ S, Ideal.exp ((a c : EReal) - (m' : EReal)) := by
  have e1 : ∀ x y : ℝ, Ideal.exp ((x : EReal) - (y : EReal)) = ((Real.exp (x - y) : ℝ) : EReal) := fun x y => by
    rw [← EReal.coe_sub]; rfl
  simp only [e1]
  rw [← coe_sum, ← coe_sum, ← EReal.coe_mul, Finset.sum_mul]
  refine congrArg _ (Finset.sum_congr rfl fun c _ => ?_)
  rw [← Real.exp_add]
  exact congrArg _ (by ring)

structure Inv (g : Fin 32000 → EReal) (lab : BitVec 32) (n : ℕ) (m l p : EReal) : Prop where
  hm : m = (colsLt n).sup g
  hl : l = ∑ c ∈ colsLt n, Ideal.exp (g c - m)
  hp : p = ∑ c ∈ colsLt n, if BitVec.ofNat 32 c.val = lab then g c else 0

theorem inv_zero (g : Fin 32000 → EReal) (lab : BitVec 32) : Inv g lab 0 ⊥ 0 0 := by
  refine ⟨?_, ?_, ?_⟩ <;> rw [colsLt_zero] <;> simp

/-- One tile keeps the description of the state by the columns seen so far. -/
theorem inv_step (g : Fin 32000 → EReal) (hg : ∀ c, ∃ a : ℝ, g c = (a : EReal)) (lab : BitVec 32) (k : Fin 5)
    (m l p : EReal) (h : Inv g lab (6400 * k.val) m l p) :
    Inv g lab (6400 * (k.val + 1))
      (max m (Finset.univ.sup fun q : Fin 6400 => g (tileCol k q)))
      (l * Ideal.exp (m - max m (Finset.univ.sup fun q : Fin 6400 => g (tileCol k q)))
        + ∑ q : Fin 6400, Ideal.exp (g (tileCol k q) - max m (Finset.univ.sup fun q : Fin 6400 => g (tileCol k q))))
      (p + ∑ q : Fin 6400, if BitVec.ofNat 32 (6400 * k.val + q.val) = lab then g (tileCol k q) else 0) := by
  obtain ⟨hm, hl, hp⟩ := h
  have hm' : max m (Finset.univ.sup fun q : Fin 6400 => g (tileCol k q)) = (colsLt (6400 * (k.val + 1))).sup g := by
    rw [colsLt_succ, Finset.sup_union, ← sup_tile, ← hm]
  refine ⟨hm', ?_, ?_⟩
  · rw [hm']
    rw [colsLt_succ, Finset.sum_union (disjoint_colsLt_tile k), sum_tile, ← colsLt_succ]
    refine congrArg (· + _) ?_

    choose a ha using hg
    obtain rfl : g = fun c => (a c : EReal) := funext ha
    obtain ⟨M', hM'⟩ := sup_real (colsLt (6400 * (k.val + 1))) (by
      rw [colsLt_succ]; exact (tile_nonempty k).mono Finset.subset_union_right) (fun c => (a c : EReal)) (fun c _ => ⟨a c, rfl⟩)
    rw [hM']
    by_cases hS : (colsLt (6400 * k.val)).Nonempty
    · obtain ⟨M, hM⟩ := sup_real (colsLt (6400 * k.val)) hS (fun c => (a c : EReal)) (fun c _ => ⟨a c, rfl⟩)
      rw [hl, hm, hM]
      exact rebase _ a M M'
    · rw [Finset.not_nonempty_iff_eq_empty] at hS
      rw [hl, hS, Finset.sum_empty, Finset.sum_empty, zero_mul]
  · rw [colsLt_succ, Finset.sum_union (disjoint_colsLt_tile k), sum_tile, ← hp]
    rfl

/-- At most one column below 32000 carries the label's word. -/
theorem sum_picked (g : Fin 32000 → EReal) (lab : BitVec 32) :
    (∑ c : Fin 32000, if BitVec.ofNat 32 c.val = lab then g c else 0)
      = if h : lab.toNat < 32000 then g ⟨lab.toNat, h⟩ else 0 := by
  have key : ∀ c : Fin 32000, BitVec.ofNat 32 c.val = lab ↔ c.val = lab.toNat := fun c => by
    constructor
    · intro h
      have := congrArg BitVec.toNat h
      rw [BitVec.toNat_ofNat] at this
      have hc := c.isLt
      omega
    · intro h
      apply BitVec.eq_of_toNat_eq
      rw [BitVec.toNat_ofNat, h]
      exact Nat.mod_eq_of_lt lab.isLt
  by_cases h : lab.toNat < 32000
  · rw [dif_pos h]
    rw [Finset.sum_eq_single (⟨lab.toNat, h⟩ : Fin 32000)]
    · rw [if_pos ((key _).mpr rfl)]
    · intro c _ hc
      rw [if_neg]
      intro e
      exact hc (Fin.ext ((key c).mp e))
    · intro hn; exact absurd (Finset.mem_univ _) hn
  · rw [dif_neg h]
    refine Finset.sum_eq_zero fun c _ => ?_
    rw [if_neg]
    intro e
    have := (key c).mp e
    have hc := c.isLt
    omega

theorem inv_final (g : Fin 32000 → EReal) (lab : BitVec 32) (m l p : EReal) (h : Inv g lab 32000 m l p) :
    m = Finset.univ.sup g ∧ l = (∑ c : Fin 32000, Ideal.exp (g c - Finset.univ.sup g))
      ∧ p = if h : lab.toNat < 32000 then g ⟨lab.toNat, h⟩ else 0 := by
  obtain ⟨hm, hl, hp⟩ := h
  rw [colsLt_all] at hm hl hp
  refine ⟨hm, ?_, ?_⟩
  · rw [hl, hm]
  · rw [hp, sum_picked]

end Cert.KernelIdeal.Hand.CE

end
-- ==== Proof.LibCols.lean ====
import Idealize.ShloMosaic.Lib.Pipeline.Value
import Idealize.ShloMosaic.Lib.ValueIdx
import Idealize.ShloMosaic.PureOps.Ideal.Laws

/-! Columns: a vector cast to a column, a column spread over the lanes, and the sum along the lanes, each read at an index. -/

noncomputable section

open scoped BigOperators

namespace Cert.LibCols

open Idealize.ShloMosaic Idealize.ShloMosaic.ValueIdx

variable {α : Type}

/-- An `[a]` array cast to `[a, 1]` reads, at `(i, u)`, the operand at `i`: both are at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, q)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the lanes of an `[a, b]` array, at row `p`: the sum of the row's `b` entries. -/
theorem multiReduction_add_lanes {a b : ℕ} (v : FVec Ideal ⟨2, ![a, b]⟩ .f32) (acc : BitVec 32)
    (h : Shape.Reduces ⟨2, ![a, b]⟩ [1] ⟨1, ![a]⟩) (hφ : FKind.Formats .f32) (hacc : acc = FKind.add.neutral .f32 hφ) (p : Fin a) :
    multiReduction (F := Ideal) .add [1] ⟨1, ![a]⟩ v acc h hφ hacc (ix1 p) = ∑ q : Fin b, v (ix2 p q) := by
  refine (Ideal.multiReduction_add_single v acc h hφ hacc (ix1 p)).trans ?_
  show (∑ q : Fin b, v (h.lift (ix1 p) q)) = _
  refine Finset.sum_congr rfl fun q _ => congrArg v ?_
  funext c; apply Fin.ext
  match c with
  | ⟨0, _⟩ => rfl
  | ⟨1, _⟩ => rfl

end Cert.LibCols

end
-- ==== Proof.Value0b.lean ====
import proofs.«431482_j82446192214711_2_alg».proof.Proof.R0Data
import proofs.«431482_j82446192214711_2_alg».proof.Proof.Value0a
import proofs.«431482_j82446192214711_2_alg».proof.Proof.LibCols
import Idealize.ShloMosaic.Lib.Pipeline.Value
import Idealize.ShloMosaic.Lib.ValueLayout
import Idealize.ShloMosaic.PureOps.Ideal.Laws

/-! Region 0's payloads read at one row, and the state after each point of a row tile by induction over its five points. -/

set_option maxRecDepth 16384

noncomputable section

namespace Cert.KernelIdeal.Hand.CE

open Idealize.ShloMosaic Idealize.ShloMosaic.TcCoe
open Idealize.ShloMosaic.Pipeline (Dat Cfg Window)
open Cert.KernelIdeal Cert.KernelIdeal.Gen Cert.KernelIdeal.Hand
open Idealize.ShloMosaic.ValueIdx
open scoped BigOperators
open Cert.Spec (ofBits_neg_inf)
open Cert.LibCols

theorem lane_max (v : FVec Ideal S256x6400 .f32) (hφ : FKind.Formats .f32)
    (hacc : (0xFF800000#32 : BitVec 32) = FKind.maximumf.neutral .f32 hφ) (p : Fin 256) :
    multiReduction (F := Ideal) .maximumf [1] S256 v 0xFF800000#32 reduces_S256x6400_S256 hφ hacc (ix1 p)
      = Finset.univ.sup fun q : Fin 6400 => v (ix2 p q) := by
  refine (Ideal.multiReduction_maximumf_single v _ reduces_S256x6400_S256 hφ hacc (ix1 p)).trans ?_
  show (Finset.univ : Finset (Fin 6400)).fold max (Ideal.ofBits .f32 0xFF800000#32) (v ∘ reduces_S256x6400_S256.lift (ix1 p)) = _
  rw [ofBits_neg_inf]
  show (Finset.univ : Finset (Fin 6400)).sup (v ∘ reduces_S256x6400_S256.lift (ix1 p)) = _
  refine congrArg _ (funext fun q => congrArg v ?_)
  funext a
  apply Fin.ext
  match a with
  | ⟨0, _⟩ => rfl
  | ⟨1, _⟩ => rfl

theorem select_cmpi_eq {α : Type} (a b : BitVec 32) (A B : α) :
    Scalar.select (IntOp.cmpi .eq a b) A B = if a = b then A else B := by
  unfold Scalar.select IntOp.cmpi
  by_cases h : a = b
  · subst h; simp
  · have hb : (a == b) = false := by simpa using h
    rw [if_neg h]
    refine if_neg ?_
    show ¬ BitVec.ofBool (a == b) = 1#1
    rw [hb]
    decide

theorem col_word (ci q : ℕ) :
    IntOp.addi (BitVec.ofNat 32 q) (Scalar.muli (BitVec.ofNat 32 ci) 6400#32) = BitVec.ofNat 32 (6400 * ci + q) := by
  unfold IntOp.addi Scalar.muli IntOp.muli
  apply BitVec.eq_of_toNat_eq
  simp only [BitVec.toNat_add, BitVec.toNat_mul, BitVec.toNat_ofNat]
  omega

theorem pay8_apply (x : Vec Ideal S256x6400 .f32) (m : Vec Ideal S256x1 .f32) (p : Fin 256) (u : Fin 1) :
    k0_pay8 x m (ix2 p u) = max (m (ix2 p u)) (Finset.univ.sup fun q : Fin 6400 => x (ix2 p q)) := by
  unfold k0_pay8
  refine (maximumf_apply _ _ _).trans ?_
  exact congrArg (max (m (ix2 p u))) ((shapeCast_a_a1_apply _ _ p u).trans (lane_max x _ _ p))

theorem pay2_eq (v : FVec Ideal S256x1 .f32) : k0_pay2 v = v := by
  unfold k0_pay2
  exact shapeCast_self v _

theorem pay1_apply (a b : FVec Ideal S256x1 .f32) (j : S256x1.Idx) : k0_pay1 a b j = a j + b j := by
  unfold k0_pay1
  refine (congrFun (shapeCast_self _ _) j).trans ?_
  exact addf_apply a b j

theorem pay9_apply (x : Vec Ideal S256x6400 .f32) (m l m0 : Vec Ideal S256x1 .f32) (j : S256x1.Idx) :
    k0_pay9 x m l m0 j = l j * Ideal.exp (m0 j - k0_pay8 x m j) := by
  unfold k0_pay9
  exact mulf_apply _ _ j

theorem exp_apply {s : Shape} {φ : FTy} (a : FVec Ideal s φ) (i : s.Idx) : exp a i = Ideal.exp (a i) := rfl

theorem log_apply {s : Shape} {φ : FTy} (a : FVec Ideal s φ) (i : s.Idx) : log a i = Ideal.log (a i) := rfl

theorem pay10_apply (x : Vec Ideal S256x6400 .f32) (m : Vec Ideal S256x1 .f32) (p : Fin 256) (u : Fin 1) :
    k0_pay10 x m (ix2 p u) = ∑ q : Fin 6400, Ideal.exp (x (ix2 p q) - k0_pay8 x m (ix2 p (0 : Fin 1))) := by
  unfold k0_pay10
  refine (shapeCast_a_a1_apply _ _ p u).trans ?_
  refine (multiReduction_add_lanes _ _ _ _ _ p).trans ?_
  refine Finset.sum_congr rfl fun q _ => ?_
  refine (exp_apply _ _).trans (congrArg Ideal.exp ?_)
  refine (subf_apply _ _ _).trans ?_
  exact congrArg (x (ix2 p q) - ·) (broadcastTo_a1_ab_apply _ _ p q)

theorem ite_word {α : Type} (a a' b b' : BitVec 32) (A B B' : α) (ha : a = a') (hb : b = b') (hB : B = B') :
    (if a = b then A else B) = if a' = b' then A else B' := by
  subst ha hb hB; rfl

theorem pay7_apply (i : grid0.Coords) (x : Vec Ideal S256x6400 .f32) (lab : Vec Ideal S256x1 .i32) (s : Vec Ideal S256x1 .f32)
    (p : Fin 256) (u : Fin 1) :
    k0_pay7 i x lab s (ix2 p u)
      = s (ix2 p u) + ∑ q : Fin 6400, if BitVec.ofNat 32 (6400 * (i 1).val + q.val) = lab (ix2 p (0 : Fin 1)) then x (ix2 p q) else 0 := by
  unfold k0_pay7
  refine (congrFun (shapeCast_self _ _) (ix2 p u)).trans ?_
  refine (addf_apply _ _ _).trans ?_
  refine congrArg (s (ix2 p u) + ·) ?_
  refine (shapeCast_a_a1_apply _ _ p u).trans ?_
  refine (multiReduction_add_lanes _ _ _ _ _ p).trans ?_
  refine Finset.sum_congr rfl fun q _ => ?_
  refine (select_apply _ _ _ _).trans ?_
  refine (select_cmpi_eq _ _ _ _).trans ?_
  refine ite_word _ _ _ _ _ _ _ ?_ ?_ ?_
  · exact (congrArg (fun w => IntOp.addi w _) (iota_single_apply .tc S256x6400 32 1 _ (ix2 p q))).trans (col_word (i 1).val q.val)
  · exact (broadcastTo_a1_ab_apply _ _ p q).trans (congrFun (shapeCast_self lab _) _)
  · exact Ideal.ofBits_zero_f32

/-- One point's payloads carry out one step of the online log-sum-exp on the row. -/
theorem step_inv (g : Fin 32000 → EReal) (hg : ∀ c, ∃ a : ℝ, g c = (a : EReal)) (L : BitVec 32) (k : Fin 5)
    (i : grid0.Coords) (hi : (i 1).val = k.val)
    (x : Vec Ideal S256x6400 .f32) (lab : Vec Ideal S256x1 .i32) (s : St0 Ideal) (p : Fin 256)
    (hx : ∀ q : Fin 6400, x (ix2 p q) = g (tileCol k q)) (hlab : lab (ix2 p (0 : Fin 1)) = L)
    (h : Inv g L (6400 * k.val) (s.1 (ix2 p (0 : Fin 1))) (s.2.1 (ix2 p (0 : Fin 1))) (s.2.2 (ix2 p (0 : Fin 1)))) :
    Inv g L (6400 * (k.val + 1)) ((step0 i lab x s).1 (ix2 p (0 : Fin 1))) ((step0 i lab x s).2.1 (ix2 p (0 : Fin 1)))
      ((step0 i lab x s).2.2 (ix2 p (0 : Fin 1))) := by
  have hsup : (Finset.univ.sup fun q : Fin 6400 => x (ix2 p q)) = Finset.univ.sup fun q : Fin 6400 => g (tileCol k q) :=
    congrArg _ (funext hx)
  have e8 : k0_pay8 x s.1 (ix2 p (0 : Fin 1))
      = max (s.1 (ix2 p (0 : Fin 1))) (Finset.univ.sup fun q : Fin 6400 => g (tileCol k q)) := by
    rw [pay8_apply, hsup]
  have e1 : (step0 i lab x s).1 (ix2 p (0 : Fin 1))
      = max (s.1 (ix2 p (0 : Fin 1))) (Finset.univ.sup fun q : Fin 6400 => g (tileCol k q)) := by
    show k0_pay2 (k0_pay8 x s.1) (ix2 p (0 : Fin 1)) = _
    rw [pay2_eq, e8]
  have e2 : (step0 i lab x s).2.1 (ix2 p (0 : Fin 1))
      = s.2.1 (ix2 p (0 : Fin 1)) * Ideal.exp (s.1 (ix2 p (0 : Fin 1)) - max (s.1 (ix2 p (0 : Fin 1))) (Finset.univ.sup fun q : Fin 6400 => g (tileCol k q)))
        + ∑ q : Fin 6400, Ideal.exp (g (tileCol k q) - max (s.1 (ix2 p (0 : Fin 1))) (Finset.univ.sup fun q : Fin 6400 => g (tileCol k q))) := by
    show k0_pay1 (k0_pay9 x s.1 s.2.1 s.1) (k0_pay10 x s.1) (ix2 p (0 : Fin 1)) = _
    rw [pay1_apply, pay9_apply, pay10_apply, e8]
    simp only [hx]
  have e3 : (step0 i lab x s).2.2 (ix2 p (0 : Fin 1))
      = s.2.2 (ix2 p (0 : Fin 1)) + ∑ q : Fin 6400, if BitVec.ofNat 32 (6400 * k.val + q.val) = L then g (tileCol k q) else 0 := by
    show k0_pay7 i x lab s.2.2 (ix2 p (0 : Fin 1)) = _
    rw [pay7_apply, hi, hlab]
    simp only [hx]
  rw [e1, e2, e3]
  exact inv_step g hg L k _ _ _ h

theorem init0_apply (j : S256x1.Idx) :
    (init0 (F := Ideal)).1 j = ⊥ ∧ (init0 (F := Ideal)).2.1 j = 0 ∧ (init0 (F := Ideal)).2.2 j = 0 := by
  refine ⟨?_, ?_, ?_⟩
  · show k0_pay4 (F := Ideal) j = ⊥
    unfold k0_pay4
    refine (congrFun (shapeCast_self _ _) j).trans ?_
    exact ofBits_neg_inf
  · show k0_pay5 (F := Ideal) j = 0
    unfold k0_pay5
    refine (congrFun (shapeCast_self _ _) j).trans ?_
    exact Ideal.ofBits_zero_f32
  · show k0_pay6 (F := Ideal) j = 0
    unfold k0_pay6
    refine (congrFun (shapeCast_self _ _) j).trans ?_
    exact Ideal.ofBits_zero_f32

theorem pay3_apply (a b d : Vec Ideal S256x1 .f32) (j : S256x1.Idx) :
    k0_pay3 a b d j = (a j + Ideal.log (b j)) - d j := by
  unfold k0_pay3
  refine (subf_apply _ _ _).trans ?_
  refine congrArg (· - d j) ?_
  refine (addf_apply _ _ _).trans ?_
  exact congrArg (a j + ·) (log_apply b j)

variable (V : (c : Dev nD) → (b : Ref sig .tc) → Buf (Elt Ideal) ((c : Thread nD τ).loc b))

theorem N0_eq : cfg0.N = 80 := N_0

theorem idx_facts0 : ∀ t : Fin cfg0.N,
    win0_0.index t (0 : Fin 2) = t.val / 5 ∧ win0_0.index t (1 : Fin 2) = 0
    ∧ win0_1.index t (0 : Fin 2) = t.val / 5 ∧ win0_1.index t (1 : Fin 2) = t.val % 5
    ∧ win0_2.index t (0 : Fin 2) = t.val / 5 ∧ win0_2.index t (1 : Fin 2) = 0
    ∧ (grid0.coords t 1).val = t.val % 5 :=
  (by decide +kernel : ∀ t : Fin grid0.N, _)

theorem iblk1_apply (c : Dev nD) (t : Fin cfg0.N) (y : S256x6400.Idx) (k : S4096x32000.Idx)
    (hk0 : (k 0).val = 256 * (t.val / 5) + (y 0).val) (hk1 : (k 1).val = 6400 * (t.val % 5) + (y 1).val) :
    (iblk0 V c 1 t : Vec Ideal S256x6400 .f32) y = (V c main_arg0 : S4096x32000.Idx → EReal) k := by
  obtain ⟨-, -, h0, h1, -, -, -⟩ := idx_facts0 t
  unfold iblk0
  rw [View.read_apply]
  show V c main_arg0 _ = V c main_arg0 _
  congr 1
  funext a
  apply Fin.ext
  match a with
  | ⟨0, _⟩ => show win0_1.index t (0 : Fin 2) * 256 + 1 * (y 0).val = (k 0).val; rw [h0, hk0]; omega
  | ⟨1, _⟩ => show win0_1.index t (1 : Fin 2) * 6400 + 1 * (y 1).val = (k 1).val; rw [h1, hk1]; omega

theorem iblk0_apply (c : Dev nD) (t : Fin cfg0.N) (y : S256x1.Idx) (k : S4096x1.Idx)
    (hk0 : (k 0).val = 256 * (t.val / 5) + (y 0).val) :
    (iblk0 V c 0 t : Vec Ideal S256x1 .i32) y = (V c main_v0 : S4096x1.Idx → BitVec 32) k := by
  obtain ⟨h0, h1, -, -, -, -, -⟩ := idx_facts0 t
  unfold iblk0
  rw [View.read_apply]
  show V c main_v0 _ = V c main_v0 _
  congr 1
  funext a
  apply Fin.ext
  have hy : (y 1).val = 0 := by have h : (y 1).val < 1 := (y 1).isLt; omega
  have hk : (k 1).val = 0 := by have h : (k 1).val < 1 := (k 1).isLt; omega
  match a with
  | ⟨0, _⟩ => show win0_0.index t (0 : Fin 2) * 256 + 1 * (y 0).val = (k 0).val; rw [h0, hk0]; omega
  | ⟨1, _⟩ => show win0_0.index t (1 : Fin 2) * 1 + 1 * (y 1).val = (k 1).val; rw [h1, hy, hk]

abbrev rowOf (c : Dev nD) (ni : Fin 16) (p : Fin 256) : Fin 32000 → EReal :=
  fun col => (V c main_arg0 : S4096x32000.Idx → EReal) (ix2 (⟨256 * ni.val + p.val, by omega⟩ : Fin 4096) col)

abbrev labOf (c : Dev nD) (ni : Fin 16) (p : Fin 256) : BitVec 32 :=
  (V c main_v0 : S4096x1.Idx → BitVec 32) (ix2 (⟨256 * ni.val + p.val, by omega⟩ : Fin 4096) (0 : Fin 1))

/-- After point 5 * ni + ci the columns at row p describe the columns before 6400 * (ci + 1) of row 256 * ni + p. -/
theorem tile_inv (c : Dev nD) (hfin : ∀ i, ∃ a : ℝ, (V c main_arg0 : S4096x32000.Idx → EReal) i = (a : EReal))
    (ni : Fin 16) (p : Fin 256) :
    ∀ (ci : ℕ) (t : Fin cfg0.N), t.val = 5 * ni.val + ci → ci < 5 →
      Inv (rowOf V c ni p) (labOf V c ni p) (6400 * (ci + 1))
        ((st0 V c t.val t.isLt).1 (ix2 p (0 : Fin 1))) ((st0 V c t.val t.isLt).2.1 (ix2 p (0 : Fin 1)))
        ((st0 V c t.val t.isLt).2.2 (ix2 p (0 : Fin 1))) := by
  have hg : ∀ col, ∃ a : ℝ, rowOf V c ni p col = (a : EReal) := fun col => hfin _

  have hx : ∀ (ci : ℕ) (hci : ci < 5) (t : Fin cfg0.N), t.val = 5 * ni.val + ci → ∀ q : Fin 6400,
      (iblk0 V c 1 t : Vec Ideal S256x6400 .f32) (ix2 p q) = rowOf V c ni p (tileCol ⟨ci, hci⟩ q) := fun ci hci t ht q =>
    iblk1_apply V c t (ix2 p q) _
      (by show 256 * ni.val + p.val = 256 * (t.val / 5) + p.val; omega)
      (by show 6400 * ci + q.val = 6400 * (t.val % 5) + q.val; omega)
  have hlab : ∀ (ci : ℕ) (hci : ci < 5) (t : Fin cfg0.N), t.val = 5 * ni.val + ci →
      (iblk0 V c 0 t : Vec Ideal S256x1 .i32) (ix2 p (0 : Fin 1)) = labOf V c ni p := fun ci hci t ht =>
    iblk0_apply V c t (ix2 p (0 : Fin 1)) _ (by show 256 * ni.val + p.val = 256 * (t.val / 5) + p.val; omega)
  have hco : ∀ (ci : ℕ) (hci : ci < 5) (t : Fin cfg0.N), t.val = 5 * ni.val + ci → (grid0.coords t 1).val = ci :=
    fun ci hci t ht => by
      obtain ⟨-, -, -, -, -, -, h⟩ := idx_facts0 t
      rw [h]; omega
  intro ci
  induction ci with
  | zero =>
    intro t ht hci
    have hp : prev0 V c t = init0 := dif_pos (by rw [ht]; omega)
    rw [st0_eq_step V c t, hp]
    obtain ⟨i1, i2, i3⟩ := init0_apply (ix2 p (0 : Fin 1))
    refine step_inv (rowOf V c ni p) hg (labOf V c ni p) ⟨0, hci⟩ (grid0.coords t) (hco 0 hci t ht)
      (iblk0 V c 1 t) (iblk0 V c 0 t) init0 p (hx 0 hci t ht) (hlab 0 hci t ht) ?_
    rw [i1, i2, i3]
    exact inv_zero _ _
  | succ ci ih =>
    intro t ht hci
    have hlt : t.val - 1 < cfg0.N := Nat.lt_of_le_of_lt (Nat.sub_le _ _) t.isLt
    have hp : prev0 V c t = st0 V c (t.val - 1) hlt := dif_neg (by rw [ht]; omega)
    rw [st0_eq_step V c t, hp]
    exact step_inv (rowOf V c ni p) hg (labOf V c ni p) ⟨ci + 1, hci⟩ (grid0.coords t) (hco (ci + 1) hci t ht)
      (iblk0 V c 1 t) (iblk0 V c 0 t) (st0 V c (t.val - 1) hlt) p (hx (ci + 1) hci t ht) (hlab (ci + 1) hci t ht)
      (ih ⟨t.val - 1, hlt⟩ (by show t.val - 1 = 5 * ni.val + ci; omega) (by omega))

end Cert.KernelIdeal.Hand.CE

end
-- ==== Proof.Value0.lean ====
import proofs.«431482_j82446192214711_2_alg».proof.Proof.R0Data
import proofs.«431482_j82446192214711_2_alg».proof.Proof.MathSpec
import proofs.«431482_j82446192214711_2_alg».proof.Proof.Value0b
import Idealize.ShloMosaic.Lib.Pipeline.Value
import Idealize.ShloMosaic.Lib.ValueLayout
import Idealize.ShloMosaic.PureOps.Ideal.Laws

/-! Region 0 leaves the cross entropy of every row: the block written at the last point of a row tile holds it for the
    tile's rows, and those blocks cover the column. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

theorem out0_apply (c : Dev nD) (hfin : ∀ i, ∃ a : ℝ, (V c main_arg0 : S4096x32000.Idx → EReal) i = (a : EReal))
    (t : Fin cfg0.N) (h4 : t.val % 5 = 4) (y : S256x1.Idx) (r : Fin 4096) (hr : r.val = 256 * (t.val / 5) + (y 0).val) :
    (out0 V c t : Vec Ideal S256x1 .f32) y
      = Cert.Spec.ceRow (V c main_arg0) (fun r => (V c main_v0 : S4096x1.Idx → BitVec 32) (ix2 r 0)) r := by
  obtain ⟨p, u, rfl⟩ : ∃ (p : Fin 256) (u : Fin 1), y = ix2 p u := ⟨y 0, y 1, eq_ix2 y⟩
  obtain rfl : u = 0 := Subsingleton.elim _ _
  have hN : t.val < 80 := Nat.lt_of_lt_of_eq t.isLt CE.N0_eq
  have hinv := CE.tile_inv V c hfin ⟨t.val / 5, by omega⟩ p 4 t (by show t.val = 5 * (t.val / 5) + 4; omega) (by omega)
  obtain ⟨hm, hl, hp⟩ := CE.inv_final _ _ _ _ _ hinv
  have hb : 256 * (t.val / 5) + p.val < 4096 := by have := p.isLt; omega
  have hr' : r = ⟨256 * (t.val / 5) + p.val, hb⟩ := Fin.ext hr
  subst hr'
  unfold out0
  rw [CE.pay3_apply, hm, hl, hp]
  rfl

theorem flushed0_eq (c : Dev nD) (hfin : ∀ i, ∃ a : ℝ, (V c main_arg0 : S4096x32000.Idx → EReal) i = (a : EReal))
    (t : Fin cfg0.N) (hf : (cfg0.win 2).flush t = true) :
    (dat0 V c).flushed 2 t = ((cfg0.win 2).blk t).view.read (Elt Ideal)
      (fun j => Cert.Spec.ceRow (V c main_arg0) (fun r => (V c main_v0 : S4096x1.Idx → BitVec 32) (ix2 r 0)) (j 0) : S4096x1.Idx → EReal) := by
  have h4 : t.val % 5 = 4 := (flush0_2 t).mp hf
  obtain ⟨-, -, -, -, h0, -, -⟩ := CE.idx_facts0 t
  show (dat0 V c).after 2 t = _
  rw [after0_2]
  funext y
  rw [View.read_apply]
  show (out0 V c t : Vec Ideal S256x1 .f32) y = Cert.Spec.ceRow (V c main_arg0) (fun r => (V c main_v0 : S4096x1.Idx → BitVec 32) (ix2 r 0))
    ((((cfg0.win 2).blk t).view.emb y) 0)
  refine out0_apply V c hfin t h4 y _ ?_
  show win0_2.index t (0 : Fin 2) * 256 + 1 * (y 0).val = 256 * (t.val / 5) + (y 0).val
  rw [h0]; omega

theorem cover0 (i : S4096x1.Idx) :
    ∃ t : Fin cfg0.N, (cfg0.win 2).flush t = true ∧ i ∈ ((cfg0.win 2).blk t).view.set := by
  have hi0 : (i 0).val < 4096 := (i 0).isLt
  have hi1 : (i 1).val < 1 := (i 1).isLt
  obtain ⟨t, ht⟩ : ∃ t : Fin cfg0.N, t.val = 5 * ((i 0).val / 256) + 4 :=
    ⟨⟨5 * ((i 0).val / 256) + 4, by rw [CE.N0_eq]; omega⟩, rfl⟩
  obtain ⟨-, -, -, -, h0, h1, -⟩ := CE.idx_facts0 t
  refine ⟨t, (flush0_2 t).mpr (by omega), ?_⟩
  show i ∈ ((View.whole main_v1).slice (win0_2.rect t)).set
  rw [View.set_slice_whole, Rect.mem_set_unit]
  intro a
  match a with
  | ⟨0, _⟩ =>
    show win0_2.index t (0 : Fin 2) * 256 ≤ (i 0).val ∧ (i 0).val < win0_2.index t (0 : Fin 2) * 256 + 256
    rw [h0]; omega
  | ⟨1, _⟩ =>
    show win0_2.index t (1 : Fin 2) * 1 ≤ (i 1).val ∧ (i 1).val < win0_2.index t (1 : Fin 2) * 1 + 1
    rw [h1]; omega

theorem final0 (c : Dev nD) (hfin : ∀ i, ∃ a : ℝ, (V c main_arg0 : S4096x32000.Idx → EReal) i = (a : EReal)) :
    (dat0 V c).arrAt 2 cfg0.N
      = (fun j => Cert.Spec.ceRow (V c main_arg0) (fun r => (V c main_v0 : S4096x1.Idx → BitVec 32) (ix2 r 0)) (j 0) : S4096x1.Idx → EReal) := by
  exact (dat0 V c).arrAt_eq_of_cover 2 _ (fun t hf => flushed0_eq V c hfin t hf) cover0

end Cert.KernelIdeal.Hand

end
-- ==== Proof.Value1a.lean ====
import proofs.«431482_j82446192214711_2_alg».proof.Proof.R1Data
import proofs.«431482_j82446192214711_2_alg».proof.Proof.MathSpec
import proofs.«431482_j82446192214711_2_alg».proof.Proof.LibCols
import Idealize.ShloMosaic.Lib.Pipeline.Value
import Idealize.ShloMosaic.Lib.ValueLayout
import Idealize.ShloMosaic.PureOps.Ideal.Laws

/-! One tile of hinges read entry by entry, and its row sums with and without the diagonal entry. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators
open Cert.LibCols

theorem lhs_gram_0 (i : S512x512.Idx) (q : dot_S512x1024_S1024x512_S512x512_1_0_0_1_n_n.contr.Idx) :
    (dot_S512x1024_S1024x512_S512x512_1_0_0_1_n_n.lhsIdx i q 0).val = (i 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
theorem lhs_gram_1 (i : S512x512.Idx) (q : dot_S512x1024_S1024x512_S512x512_1_0_0_1_n_n.contr.Idx) :
    (dot_S512x1024_S1024x512_S512x512_1_0_0_1_n_n.lhsIdx i q 1).val = (q ⟨0, by decide⟩).val :=
  dot_S512x1024_S1024x512_S512x512_1_0_0_1_n_n.lhsIdx_val_of_single rfl i q
theorem rhs_gram_0 (i : S512x512.Idx) (q : dot_S512x1024_S1024x512_S512x512_1_0_0_1_n_n.contr.Idx) :
    (dot_S512x1024_S1024x512_S512x512_1_0_0_1_n_n.rhsIdx i q 0).val = (q ⟨0, by decide⟩).val :=
  dot_S512x1024_S1024x512_S512x512_1_0_0_1_n_n.rhsIdx_val_of_single rfl i q
theorem rhs_gram_1 (i : S512x512.Idx) (q : dot_S512x1024_S1024x512_S512x512_1_0_0_1_n_n.contr.Idx) :
    (dot_S512x1024_S1024x512_S512x512_1_0_0_1_n_n.rhsIdx i q 1).val = (i 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

theorem gram_matmul_apply (xl : FVec Ideal S512x1024 .bf16) (xr : FVec Ideal S1024x512 .bf16) (p q : Fin 512) :
    (matmul dot_S512x1024_S1024x512_S512x512_1_0_0_1_n_n none xl xr (constant (F := Ideal) S512x512 .f32 0x00000000#32) : FVec Ideal S512x512 .f32) (ix2 p q)
      = ∑ k : Fin 1024, xl (ix2 p k) * xr (ix2 k q) := by
  simp only [matmul]
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun a => Fin.ext (by
    match a with
    | ⟨0, _⟩ => exact lhs_gram_0 _ _
    | ⟨1, _⟩ => exact (lhs_gram_1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun a => Fin.ext (by
    match a with
    | ⟨0, _⟩ => exact (rhs_gram_0 _ _).trans hk
    | ⟨1, _⟩ => exact rhs_gram_1 _ _)
  rw [el, er]

def tileHinge (xi xj : FVec Ideal S512x1024 .bf16) (ni : FVec Ideal S512x1 .f32) (nj : FVec Ideal S1x512 .f32) (p q : Fin 512) : EReal :=
  max (Ideal.div (∑ k : Fin 1024, xi (ix2 p k) * xj (ix2 q k)) (max (ni (ix2 p (0 : Fin 1)) * nj (ix2 (0 : Fin 1) q)) Cert.Spec.epsC) - 0) 0

theorem pay2_apply (xi xj : FVec Ideal S512x1024 .bf16) (ni : FVec Ideal S512x1 .f32) (nj : FVec Ideal S1x512 .f32) (p q : Fin 512) :
    (k1_pay2 (F := Ideal) xi xj ni nj) (ix2 p q) = tileHinge xi xj ni nj p q := by
  unfold k1_pay2 tileHinge
  dsimp only
  have eM : (matmul dot_S512x1024_S1024x512_S512x512_1_0_0_1_n_n none (shapeCast S512x1024 xi shapeCasts_S512x1024_S512x1024)
      (transpose S1024x512 [1, 0] (shapeCast S512x1024 xj shapeCasts_S512x1024_S512x1024) transposes_S512x1024_p1_0_S1024x512)
      (constant (F := Ideal) S512x512 .f32 0x00000000#32) : FVec Ideal S512x512 .f32) (ix2 p q)
        = ∑ k : Fin 1024, xi (ix2 p k) * xj (ix2 q k) := by
    refine (gram_matmul_apply _ _ p q).trans (Finset.sum_congr rfl fun k _ => ?_)
    rw [shapeCast_self, transpose_ix2_apply, shapeCast_self]
  have eI : broadcastTo S512x512 (shapeCast S512x1 ni shapeCasts_S512x1_S512x1) broadcasts_S512x1_S512x512 (ix2 p q) = ni (ix2 p (0 : Fin 1)) := by
    rw [shapeCast_self]; exact broadcastTo_a1_ab_apply ni _ p q
  have eJ : broadcastTo S512x512 (shapeCast S1x512 nj shapeCasts_S1x512_S1x512) broadcasts_S1x512_S512x512 (ix2 p q) = nj (ix2 (0 : Fin 1) q) := by
    rw [shapeCast_self]; exact broadcastTo_1b_ab_apply nj _ p q
  exact congrArg₂ max (congrArg₂ (· - ·) (congrArg₂ Ideal.div eM (congrArg₂ max (congrArg₂ (· * ·) eI eJ) rfl)) Ideal.ofBits_zero_f32) Ideal.ofBits_zero_f32

theorem pay4_apply (xi xj : FVec Ideal S512x1024 .bf16) (ni : FVec Ideal S512x1 .f32) (nj : FVec Ideal S1x512 .f32)
    (a : FVec Ideal S512x1 .f32) (p : Fin 512) :
    (k1_pay4 (F := Ideal) xi xj ni nj a) (ix2 p (0 : Fin 1)) = a (ix2 p (0 : Fin 1)) + ∑ q : Fin 512, tileHinge xi xj ni nj p q := by
  unfold k1_pay4
  dsimp only
  rw [shapeCast_self]
  refine (addf_apply _ _ _).trans ?_
  refine congrArg (a (ix2 p (0 : Fin 1)) + ·) ?_
  refine (shapeCast_a_a1_apply _ _ p 0).trans ?_
  refine (multiReduction_add_lanes _ _ _ _ _ p).trans ?_
  exact Finset.sum_congr rfl fun q _ => pay2_apply xi xj ni nj p q

/-- Row numbers below 512 shifted by one word differ as words exactly when they differ. -/
theorem mask_word (cw : BitVec 32) (p q : Fin 512) :
    IntOp.cmpi .ne (IntOp.addi (BitVec.ofNat 32 p.val) cw) (IntOp.addi (BitVec.ofNat 32 q.val) cw) = if p ≠ q then 1#1 else 0#1 := by
  by_cases h : p = q
  · subst h; simp [IntOp.cmpi]
  · have hne : ¬ (BitVec.ofNat 32 p.val + cw = BitVec.ofNat 32 q.val + cw) := by
      intro e
      have e2 : BitVec.ofNat 32 p.val = BitVec.ofNat 32 q.val := by
        have := congrArg (· - cw) e
        simpa [BitVec.add_sub_cancel] using this
      have e3 := congrArg BitVec.toNat e2
      simp only [BitVec.toNat_ofNat] at e3
      have hp := p.isLt; have hq := q.isLt
      exact h (Fin.ext (by omega))
    have hb : (BitVec.ofNat 32 p.val + cw != BitVec.ofNat 32 q.val + cw) = true := by simpa [bne_iff_ne] using hne
    rw [if_pos h]
    show BitVec.ofBool (BitVec.ofNat 32 p.val + cw != BitVec.ofNat 32 q.val + cw) = 1#1
    rw [hb]; rfl

theorem pay3_apply (i : grid1.Coords) (hd : (i 0).val = (i 1).val) (xi xj : FVec Ideal S512x1024 .bf16) (ni : FVec Ideal S512x1 .f32) (nj : FVec Ideal S1x512 .f32)
    (a : FVec Ideal S512x1 .f32) (p : Fin 512) :
    (k1_pay3 (F := Ideal) i xi xj ni nj a) (ix2 p (0 : Fin 1))
      = a (ix2 p (0 : Fin 1)) + ∑ q : Fin 512, if p ≠ q then tileHinge xi xj ni nj p q else 0 := by
  unfold k1_pay3
  dsimp only
  rw [shapeCast_self]
  refine (addf_apply _ _ _).trans ?_
  refine congrArg (a (ix2 p (0 : Fin 1)) + ·) ?_
  refine (shapeCast_a_a1_apply _ _ p 0).trans ?_
  refine (multiReduction_add_lanes _ _ _ _ _ p).trans ?_
  refine Finset.sum_congr rfl fun q _ => ?_
  refine (select_apply _ _ _ _).trans ?_
  have em : (cmpi CmpIPredicate.ne
        (addi (iota Kind.tc S512x512 32 [0] iota_S512x512_d0_w32) (broadcast S512x512 (Scalar.muli (BitVec.ofNat 32 (i 0).val) 512#32)))
        (addi (iota Kind.tc S512x512 32 [1] iota_S512x512_d1_w32) (broadcast S512x512 (Scalar.muli (BitVec.ofNat 32 (i 1).val) 512#32))))
        (ix2 p q) = if p ≠ q then 1#1 else 0#1 := by
    show IntOp.cmpi .ne (IntOp.addi (iota Kind.tc S512x512 32 [0] iota_S512x512_d0_w32 (ix2 p q)) (Scalar.muli (BitVec.ofNat 32 (i 0).val) 512#32))
      (IntOp.addi (iota Kind.tc S512x512 32 [1] iota_S512x512_d1_w32 (ix2 p q)) (Scalar.muli (BitVec.ofNat 32 (i 1).val) 512#32)) = _
    rw [iota_single_apply, iota_single_apply, hd]
    exact mask_word _ p q
  rw [em]
  by_cases h : p = q
  · rw [if_neg (not_not.mpr h), if_neg (not_not.mpr h), select_zero]
    exact Ideal.ofBits_zero_f32
  · rw [if_pos h, if_pos h, select_one]
    exact pay2_apply xi xj ni nj p q

end Cert.KernelIdeal.Hand

end
-- ==== Proof.Value1b.lean ====
import proofs.«431482_j82446192214711_2_alg».proof.Proof.R1Data
import proofs.«431482_j82446192214711_2_alg».proof.Proof.MathSpec
import proofs.«431482_j82446192214711_2_alg».proof.Proof.Value1a
import Idealize.ShloMosaic.Lib.Pipeline.Value
import Idealize.ShloMosaic.Lib.ValueLayout
import Idealize.ShloMosaic.PureOps.Ideal.Laws

/-! The column after each point of region 1: by induction over the eight points of a row tile it holds the sum over the
    column blocks so far of the hinges against their rows, the row itself left out; after the eighth, against every other row. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

abbrev xiB (c : Dev nD) (t : Fin cfg1.N) : FVec Ideal S512x1024 .bf16 := iblk1 V c 0 t

abbrev xallB (c : Dev nD) (t : Fin cfg1.N) : FVec Ideal S4096x1024 .bf16 := iblk1 V c 1 t

abbrev niB (c : Dev nD) (t : Fin cfg1.N) : FVec Ideal S512x1 .f32 := iblk1 V c 2 t

abbrev njB (c : Dev nD) (t : Fin cfg1.N) : FVec Ideal S1x512 .f32 := iblk1 V c 3 t

abbrev featA (c : Dev nD) : S4096x1024.Idx → EReal := V c main_v9

abbrev ncolA (c : Dev nD) : S4096x1.Idx → EReal := V c main_v7

abbrev nrowA (c : Dev nD) : S1x4096.Idx → EReal := V c main_v8

theorem pt_facts : ∀ t : Fin cfg1.N,
    ((grid1.coords t 0).val = t.val / 8 ∧ (grid1.coords t 1).val = t.val % 8)
    ∧ (win1_0.index t (0 : Fin 2) = t.val / 8 ∧ win1_0.index t (1 : Fin 2) = 0)
    ∧ (win1_1.index t (0 : Fin 2) = 0 ∧ win1_1.index t (1 : Fin 2) = 0)
    ∧ (win1_2.index t (0 : Fin 2) = t.val / 8 ∧ win1_2.index t (1 : Fin 2) = 0)
    ∧ (win1_3.index t (0 : Fin 2) = 0 ∧ win1_3.index t (1 : Fin 2) = t.val % 8)
    ∧ (win1_4.index t (0 : Fin 2) = t.val / 8 ∧ win1_4.index t (1 : Fin 2) = 0) :=
  (by decide +kernel : ∀ t : Fin grid1.N, _)

theorem blk0_apply (c : Dev nD) (t : Fin cfg1.N) (p : Fin 512) (k : Fin 1024) (r : Fin 4096) (hr : r.val = 512 * (t.val / 8) + p.val) :
    xiB V c t (ix2 p k) = featA V c (ix2 r k) := by
  obtain ⟨-, ⟨e0, e1⟩, -⟩ := pt_facts t
  unfold xiB featA iblk1
  rw [View.read_apply]
  show (V c main_v9 : S4096x1024.Idx → EReal) _ = _
  congr 1
  funext a
  apply Fin.ext
  match a with
  | ⟨0, _⟩ => show win1_0.index t 0 * 512 + 1 * p.val = r.val; rw [e0, hr]; omega
  | ⟨1, _⟩ => show win1_0.index t 1 * 1024 + 1 * k.val = k.val; rw [e1]; omega

theorem blk1_apply (c : Dev nD) (t : Fin cfg1.N) (q : Fin 512) (k : Fin 1024) (s : Fin 4096) (hs : s.val = 512 * (t.val % 8) + q.val) :
    (View.ld (Val := Elt Ideal) (e' := .bf16) (xallB V c t) (rj1 (grid1.coords t)) : FVec Ideal S512x1024 .bf16) (ix2 q k) = featA V c (ix2 s k) := by
  obtain ⟨⟨-, c1⟩, -, ⟨e0, e1⟩, -⟩ := pt_facts t
  show xallB V c t ((rj1 (grid1.coords t)).idx (ix2 q k)) = _
  unfold xallB featA iblk1
  rw [View.read_apply]
  show (V c main_v9 : S4096x1024.Idx → EReal) _ = _
  congr 1
  funext a
  apply Fin.ext
  have ho := k1_off1_eq (grid1.coords t)
  match a with
  | ⟨0, _⟩ =>
    show win1_1.index t 0 * 4096 + 1 * (k1_off1 (grid1.coords t) 0 + 1 * q.val) = s.val
    rw [e0, ho, hs, c1]
    show 0 * 4096 + 1 * (512 * (t.val % 8) + 1 * q.val) = _
    omega
  | ⟨1, _⟩ =>
    show win1_1.index t 1 * 1024 + 1 * (k1_off1 (grid1.coords t) 1 + 1 * k.val) = k.val
    rw [e1, ho]
    show 0 * 1024 + 1 * (0 + 1 * k.val) = _
    omega

theorem blk2_apply (c : Dev nD) (t : Fin cfg1.N) (p : Fin 512) (r : Fin 4096) (hr : r.val = 512 * (t.val / 8) + p.val) :
    niB V c t (ix2 p (0 : Fin 1)) = ncolA V c (ix2 r (0 : Fin 1)) := by
  obtain ⟨-, -, -, ⟨e0, e1⟩, -⟩ := pt_facts t
  unfold niB ncolA iblk1
  rw [View.read_apply]
  show (V c main_v7 : S4096x1.Idx → EReal) _ = _
  congr 1
  funext a
  apply Fin.ext
  match a with
  | ⟨0, _⟩ => show win1_2.index t 0 * 512 + 1 * p.val = r.val; rw [e0, hr]; omega
  | ⟨1, _⟩ => show win1_2.index t 1 * 1 + 1 * 0 = 0; rw [e1]

theorem blk3_apply (c : Dev nD) (t : Fin cfg1.N) (q : Fin 512) (s : Fin 4096) (hs : s.val = 512 * (t.val % 8) + q.val) :
    njB V c t (ix2 (0 : Fin 1) q) = nrowA V c (ix2 (0 : Fin 1) s) := by
  obtain ⟨-, -, -, -, ⟨e0, e1⟩, -⟩ := pt_facts t
  unfold njB nrowA iblk1
  rw [View.read_apply]
  show (V c main_v8 : S1x4096.Idx → EReal) _ = _
  congr 1
  funext a
  apply Fin.ext
  match a with
  | ⟨0, _⟩ => show win1_3.index t 0 * 1 + 1 * 0 = 0; rw [e0]
  | ⟨1, _⟩ => show win1_3.index t 1 * 512 + 1 * q.val = s.val; rw [e1, hs]; omega

def rowOf (i : ℕ) (p : Fin 512) : Fin 4096 := ⟨(512 * i + p.val) % 4096, Nat.mod_lt _ (by decide)⟩

theorem rowOf_val (i : ℕ) (hi : i < 8) (p : Fin 512) : (rowOf i p).val = 512 * i + p.val := by
  have hp := p.isLt
  show (512 * i + p.val) % 4096 = _
  omega

def hingeAt (c : Dev nD) (r s : Fin 4096) : EReal :=
  Cert.Spec.hinge (Cert.Spec.gram (featA V c)) (fun r => ncolA V c (ix2 r (0 : Fin 1))) (fun s => nrowA V c (ix2 (0 : Fin 1) s)) r s

def addend (c : Dev nD) (i : ℕ) (p : Fin 512) (j : ℕ) : EReal :=
  ∑ q : Fin 512, if rowOf i p ≠ rowOf j q then hingeAt V c (rowOf i p) (rowOf j q) else 0

theorem tile_eq (c : Dev nD) (t : Fin cfg1.N) (p q : Fin 512) :
    tileHinge (xiB V c t) (View.ld (Val := Elt Ideal) (e' := .bf16) (xallB V c t) (rj1 (grid1.coords t))) (niB V c t) (njB V c t) p q
      = hingeAt V c (rowOf (t.val / 8) p) (rowOf (t.val % 8) q) := by
  have hN : cfg1.N = 64 := N_1
  have ht : t.val < 64 := hN ▸ t.isLt
  have hr := rowOf_val (t.val / 8) (by omega) p
  have hs := rowOf_val (t.val % 8) (by omega) q
  unfold tileHinge hingeAt Cert.Spec.hinge Cert.Spec.gram
  have eG : (∑ k : Fin 1024, xiB V c t (ix2 p k) * (View.ld (Val := Elt Ideal) (e' := .bf16) (xallB V c t) (rj1 (grid1.coords t)) : FVec Ideal S512x1024 .bf16) (ix2 q k))
      = ∑ k : Fin 1024, featA V c (ix2 (rowOf (t.val / 8) p) k) * featA V c (ix2 (rowOf (t.val % 8) q) k) :=
    Finset.sum_congr rfl fun k _ => congrArg₂ (· * ·) (blk0_apply V c t p k _ hr) (blk1_apply V c t q k _ hs)
  exact congrArg₂ max (congrArg₂ (· - ·) (congrArg₂ Ideal.div eG
    (congrArg₂ max (congrArg₂ (· * ·) (blk2_apply V c t p _ hr) (blk3_apply V c t q _ hs)) rfl)) rfl) rfl

theorem step1_apply (c : Dev nD) (t : Fin cfg1.N) (a : FVec Ideal S512x1 .f32) (p : Fin 512) :
    (step1 (F := Ideal) (grid1.coords t) (xiB V c t) (xallB V c t) (niB V c t) (njB V c t) a) (ix2 p (0 : Fin 1))
      = a (ix2 p (0 : Fin 1)) + addend V c (t.val / 8) p (t.val % 8) := by
  have hN : cfg1.N = 64 := N_1
  have ht : t.val < 64 := hN ▸ t.isLt
  obtain ⟨⟨c0, c1⟩, -⟩ := pt_facts t
  have hp := p.isLt
  unfold step1 addend
  by_cases hd : (grid1.coords t 0).val = (grid1.coords t 1).val
  · rw [if_pos hd]
    refine (pay3_apply (grid1.coords t) hd (xiB V c t) (View.ld (Val := Elt Ideal) (e' := .bf16) (xallB V c t) (rj1 (grid1.coords t))) (niB V c t) (njB V c t) a p).trans ?_
    refine congrArg (a (ix2 p (0 : Fin 1)) + ·) (Finset.sum_congr rfl fun q _ => ?_)
    have hq := q.isLt
    have hdd : t.val / 8 = t.val % 8 := by rw [← c0, ← c1]; exact hd
    have hiff : (p ≠ q) ↔ (rowOf (t.val / 8) p ≠ rowOf (t.val % 8) q) := by
      refine not_congr ⟨fun h => by subst h; rw [hdd], fun h => ?_⟩
      have hv := congrArg Fin.val h
      rw [rowOf_val _ (by omega), rowOf_val _ (by omega)] at hv
      exact Fin.ext (by omega)
    rw [tile_eq V c t p q]
    exact if_congr hiff rfl rfl
  · rw [if_neg hd]
    refine (pay4_apply (xiB V c t) (View.ld (Val := Elt Ideal) (e' := .bf16) (xallB V c t) (rj1 (grid1.coords t))) (niB V c t) (njB V c t) a p).trans ?_
    refine congrArg (a (ix2 p (0 : Fin 1)) + ·) (Finset.sum_congr rfl fun q _ => ?_)
    have hq := q.isLt
    have hne : rowOf (t.val / 8) p ≠ rowOf (t.val % 8) q := by
      intro h
      have hv := congrArg Fin.val h
      rw [rowOf_val _ (by omega), rowOf_val _ (by omega)] at hv
      apply hd; rw [c0, c1]; omega
    rw [if_pos hne]
    exact tile_eq V c t p q

theorem zero_col (p : Fin 512) : (k1_pay1 (F := Ideal)) (ix2 p (0 : Fin 1)) = 0 := by
  unfold k1_pay1
  rw [shapeCast_self]
  exact Ideal.ofBits_zero_f32

/-- After point 8 * i + j the column holds, at row p, the addends of the column blocks 0 … j of row block i. -/
theorem acc1_apply (c : Dev nD) : ∀ (n : ℕ) (hn : n < cfg1.N) (p : Fin 512),
    (acc1 V c n hn : FVec Ideal S512x1 .f32) (ix2 p (0 : Fin 1)) = ∑ j ∈ Finset.range (n % 8 + 1), addend V c (n / 8) p j := by
  intro n
  induction n with
  | zero =>
    intro hn p
    refine (congrFun (acc1_eq_step V c ⟨0, hn⟩) (ix2 p (0 : Fin 1))).trans ?_
    refine (step1_apply V c ⟨0, hn⟩ (prev1 V c ⟨0, hn⟩) p).trans ?_
    have hp : prev1 V c ⟨0, hn⟩ = (k1_pay1 (F := Ideal)) := by unfold prev1; exact dif_pos rfl
    rw [hp, zero_col, zero_add]
    show addend V c (0 / 8) p (0 % 8) = ∑ j ∈ Finset.range (0 % 8 + 1), addend V c (0 / 8) p j
    simp
  | succ n ih =>
    intro hn p
    rw [acc1_succ]
    refine (step1_apply V c ⟨n + 1, hn⟩ _ p).trans ?_
    show _ + addend V c ((n + 1) / 8) p ((n + 1) % 8) = _
    by_cases h : (n + 1) % 8 = 0
    · rw [if_pos h, zero_col, zero_add, h]
      simp
    · rw [if_neg h, ih (Nat.lt_of_succ_lt hn) p]
      have h1 : (n + 1) / 8 = n / 8 := by omega
      have h2 : (n + 1) % 8 = n % 8 + 1 := by omega
      rw [h1, h2, Finset.sum_range_succ _ (n % 8 + 1)]

/-- Eight blocks of 512 rows are the 4096 rows. -/
theorem sum_blocks (g : Fin 4096 → EReal) : ∑ j ∈ Finset.range 8, ∑ q : Fin 512, g (rowOf j q) = ∑ s : Fin 4096, g s := by
  rw [← Fin.sum_univ_eq_sum_range (fun j => ∑ q : Fin 512, g (rowOf j q)) 8, ← Fintype.sum_prod_type']
  refine Fintype.sum_equiv (finProdFinEquiv (m := 8) (n := 512)) _ _ fun x => congrArg g (Fin.ext ?_)
  have h1 := x.1.isLt
  have h2 := x.2.isLt
  rw [rowOf_val _ h1]
  show 512 * x.1.val + x.2.val = x.2.val + 512 * x.1.val
  omega

theorem acc1_last (c : Dev nD) (t : Fin cfg1.N) (h7 : t.val % 8 = 7) (p : Fin 512) :
    (acc1 V c t.val t.isLt : FVec Ideal S512x1 .f32) (ix2 p (0 : Fin 1))
      = Cert.Spec.hingeRow (Cert.Spec.gram (featA V c)) (fun r => ncolA V c (ix2 r (0 : Fin 1))) (fun s => nrowA V c (ix2 (0 : Fin 1) s))
          (rowOf (t.val / 8) p) := by
  rw [acc1_apply V c t.val t.isLt p, h7]
  unfold addend Cert.Spec.hingeRow
  exact sum_blocks (fun s => if rowOf (t.val / 8) p ≠ s then hingeAt V c (rowOf (t.val / 8) p) s else 0)

end Cert.KernelIdeal.Hand

end
-- ==== Proof.Value1.lean ====
import proofs.«431482_j82446192214711_2_alg».proof.Proof.R1Data
import proofs.«431482_j82446192214711_2_alg».proof.Proof.MathSpec
import proofs.«431482_j82446192214711_2_alg».proof.Proof.Value1b
import Idealize.ShloMosaic.Lib.Pipeline.Value
import Idealize.ShloMosaic.Lib.ValueLayout
import Idealize.ShloMosaic.PureOps.Ideal.Laws

/-! Region 1 leaves every row's sum of hinges against the other rows: the block written at the last point of a row tile
    holds it for the tile's rows, and those blocks cover the column. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (V : (c : Dev nD) → (b : Ref sig .tc) → Buf (Elt Ideal) ((c : Thread nD τ).loc b))

abbrev G1 (c : Dev nD) : S4096x1.Idx → EReal := fun j =>
  Cert.Spec.hingeRow (Cert.Spec.gram (V c main_v9)) (fun r => (V c main_v7 : S4096x1.Idx → EReal) (ix2 r 0))
    (fun s => (V c main_v8 : S1x4096.Idx → EReal) (ix2 0 s)) (j 0)

theorem flushed1_eq (c : Dev nD) (t : Fin cfg1.N) (hf : (cfg1.win 4).flush t = true) :
    (dat1 V c).flushed 4 t = ((cfg1.win 4).blk t).view.read (Elt Ideal) (G1 V c) := by
  have h7 : t.val % 8 = 7 := (flush1_4 t).mp hf
  obtain ⟨-, -, -, -, -, ⟨e0, e1⟩⟩ := pt_facts t
  have hN : cfg1.N = 64 := N_1
  have ht : t.val < 64 := hN ▸ t.isLt
  show (cfg1.win 4).cut (grid1.coords t) ((dat1 V c).after 4 t) = _
  rw [after1_4]
  unfold out1
  refine funext fun (y : S512x1.Idx) => ?_
  rw [View.read_apply]
  obtain ⟨p, u, rfl⟩ : ∃ (p : Fin 512) (u : Fin 1), y = ix2 p u := ⟨y 0, y 1, eq_ix2 y⟩
  obtain rfl : u = 0 := Subsingleton.elim _ _
  show (acc1 V c t.val t.isLt : FVec Ideal S512x1 .f32) (ix2 p (0 : Fin 1)) = G1 V c (((cfg1.win 4).blk t).view.emb (ix2 p (0 : Fin 1)))
  rw [acc1_last V c t h7 p]
  refine congrArg (Cert.Spec.hingeRow _ _ _) (Fin.ext ?_)
  rw [rowOf_val _ (by omega)]
  show 512 * (t.val / 8) + p.val = win1_4.index t 0 * 512 + 1 * p.val
  rw [e0]; omega

theorem cover1 (i : S4096x1.Idx) : ∃ t : Fin cfg1.N, (cfg1.win 4).flush t = true ∧ i ∈ ((cfg1.win 4).blk t).view.set := by
  have hi0 : (i 0).val < 4096 := (i 0).isLt
  have hi1 : (i 1).val < 1 := (i 1).isLt
  have hN : cfg1.N = 64 := N_1
  have hlt : 8 * ((i 0).val / 512) + 7 < cfg1.N := by rw [hN]; omega
  obtain ⟨-, -, -, -, -, ⟨e0, e1⟩⟩ := pt_facts ⟨8 * ((i 0).val / 512) + 7, hlt⟩
  have e0' : win1_4.index ⟨8 * ((i 0).val / 512) + 7, hlt⟩ 0 = (8 * ((i 0).val / 512) + 7) / 8 := e0
  refine ⟨⟨8 * ((i 0).val / 512) + 7, hlt⟩, (flush1_4 _).mpr (by show (8 * ((i 0).val / 512) + 7) % 8 = 7; omega), ?_⟩
  show i ∈ ((View.whole main_v10).slice (win1_4.rect ⟨8 * ((i 0).val / 512) + 7, hlt⟩)).set
  rw [View.set_slice_whole, Rect.mem_set_unit]
  intro a
  match a with
  | ⟨0, _⟩ =>
    show win1_4.index ⟨8 * ((i 0).val / 512) + 7, hlt⟩ 0 * 512 ≤ (i 0).val ∧ (i 0).val < win1_4.index ⟨8 * ((i 0).val / 512) + 7, hlt⟩ 0 * 512 + 512
    rw [e0']; omega
  | ⟨1, _⟩ =>
    show win1_4.index ⟨8 * ((i 0).val / 512) + 7, hlt⟩ 1 * 1 ≤ (i 1).val ∧ (i 1).val < win1_4.index ⟨8 * ((i 0).val / 512) + 7, hlt⟩ 1 * 1 + 1
    rw [e1]; omega

theorem final1 (c : Dev nD) :
    (dat1 V c).arrAt 4 cfg1.N
      = (fun j => Cert.Spec.hingeRow (Cert.Spec.gram (V c main_v9))
          (fun r => (V c main_v7 : S4096x1.Idx → EReal) (ix2 r 0)) (fun s => (V c main_v8 : S1x4096.Idx → EReal) (ix2 0 s)) (j 0) : S4096x1.Idx → EReal) := by
  exact (dat1 V c).arrAt_eq_of_cover 4 (G1 V c) (flushed1_eq V c) (fun i => cover1 i)

end Cert.KernelIdeal.Hand

end
-- ==== Proof.KHost.lean ====
import proofs.«431482_j82446192214711_2_alg».proof.Proof.Vals
import proofs.«431482_j82446192214711_2_alg».proof.Proof.Value0
import proofs.«431482_j82446192214711_2_alg».proof.Proof.Value1
import proofs.«431482_j82446192214711_2_alg».proof.Proof.MathSpec
import Idealize.ShloMosaic.Lib.StableHlo.Run
import Idealize.ShloMosaic.Lib.Pipeline.Value
import Idealize.ShloMosaic.Lib.ValueLayout
import Idealize.ShloMosaic.PureOps.Ideal.Laws
import Idealize.ShloMosaic.Lib.IdealHost

/-! The kernel's result at the extended reals is `Cert.Spec.total` of its arguments: the host stretches reshape the labels,
    take the mean of the cross-entropy column and the row norms, and add a tenth of the hinge total over the number of pairs. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open scoped BigOperators

variable (m : (ℓ : Loc nD τ sig) → Buf (Elt Ideal) ℓ)

namespace KHost

theorem sum_col (g : Fin 4096 → EReal) : ∑ i : S4096x1.Idx, g (i 0) = ∑ r : Fin 4096, g r := by
  refine (sum_idx2 (n0 := 4096) (n1 := 1) (fun i => g (i 0))).trans ?_
  refine Finset.sum_congr rfl fun a _ => ?_
  rw [Fin.sum_univ_one]

theorem col_total (v : FVec Ideal S4096x1 .f32) (g : Fin 4096 → EReal) (hv : v = fun j => g (j 0)) (d : BitVec 32) (j : S_.Idx) :
    Host.divf (F := Ideal) (Host.reduceAdd (F := Ideal) v (constant (F := Ideal) S_ .f32 0x00000000#32) reducesTo_S4096x1_S_d0_1 h_S_)
        (constant (F := Ideal) S_ .f32 d) j
      = Ideal.div (∑ r : Fin 4096, g r) (Ideal.ofBits .f32 d) := by
  subst hv
  rw [hostDivf_apply, hostReduceAdd_apply, Ideal.hostReduceAdd_total _ (fun b => b.elim0), constant_apply, constant_apply,
    Ideal.ofBits_zero_f32, zero_add]
  exact congrArg (fun s => Ideal.div s (Ideal.ofBits .f32 d)) (sum_col g)

def normColOf (f : FVec Ideal S4096x1024 .f32) : FVec Ideal S4096x1 .f32 :=
  Host.sqrt (F := Ideal) (broadcastInDim (s := S4096) S4096x1 (![0] : Fin 1 → Fin S4096x1.rank) bcast_S4096_S4096x1_0
    (Host.reduceAdd (F := Ideal) (mulf f f) (constant (F := Ideal) S_ .f32 0x00000000#32) reducesTo_S4096x1024_S4096_d1 h_S_))

theorem normColOf_apply (f : FVec Ideal S4096x1024 .f32) (r : Fin 4096) : normColOf f (ix2 r 0) = Cert.Spec.norm f r := by
  have hR : S4096x1024.Reduces [1] S4096 := by decide
  have hl : ∀ k : Fin 1024, hR.lift (ix1 r) k = ix2 r k := fun k =>
    funext fun a => Fin.ext (by match a with | ⟨0, _⟩ => rfl | ⟨1, _⟩ => rfl)
  unfold normColOf Cert.Spec.norm
  show Ideal.sqrt (broadcastInDim (s := S4096) S4096x1 (![0] : Fin 1 → Fin S4096x1.rank) bcast_S4096_S4096x1_0 _ (ix2 r 0)) = _
  rw [broadcastInDim_apply (s := S4096) (![0] : Fin 1 → Fin S4096x1.rank) bcast_S4096_S4096x1_0 _ (ix2 r 0) (ix1 r)
    (fun a => by match a with | ⟨0, _⟩ => rfl)]
  rw [hostReduceAdd_apply, Ideal.hostReduceAdd_single reducesTo_S4096x1024_S4096_d1 hR, constant_apply, Ideal.ofBits_zero_f32, zero_add]
  refine congrArg Ideal.sqrt (Finset.sum_congr rfl fun k _ => ?_)
  rw [mulf_apply, hl k]

theorem row_of_col_apply (v : S4096x1.Idx → EReal) (s : Fin 4096) :
    shapeCast S1x4096 v shapeCasts_S4096x1_S1x4096 (ix2 0 s) = v (ix2 s 0) := by
  refine shapeCast_apply (s := S4096x1) (t := S1x4096) _ _ _ _ ?_
  rw [Shape.rowMajor_val_two, Shape.rowMajor_val_two]
  show s.val * 1 + 0 = 0 * 4096 + s.val
  omega

theorem V1_logits (c : Dev nD) : V1 m c main_arg0 = m ((c : Thread nD τ).loc main_arg0) := by
  show StableHlo.after hostOps0 (W0 m c) (Proc.devRef .tc main_arg0) = _
  after_results

theorem V1_labels (c : Dev nD) (r : Fin 4096) :
    (V1 m c main_v0 : S4096x1.Idx → BitVec 32) (ix2 r 0) = (m ((c : Thread nD τ).loc main_arg1) : S4096.Idx → BitVec 32) (ix1 r) := by
  have e : @Eq (S4096x1.Idx → BitVec 32) (V1 m c main_v0)
      (shapeCast S4096x1 (m ((c : Thread nD τ).loc main_arg1) : S4096.Idx → BitVec 32) shapeCasts_S4096_S4096x1) := by
    show StableHlo.after hostOps0 (W0 m c) (Proc.devRef .tc main_v0) = _
    after_results
    rfl
  rw [e]
  refine shapeCast_apply (s := S4096) (t := S4096x1) _ _ _ _ ?_
  rw [Shape.rowMajor_val_one, Shape.rowMajor_val_two]
  show r.val = r.val * 1 + 0
  omega

theorem ce_eq (c : Dev nD)
    (hfin : ∀ i, ∃ a : ℝ, (m ((c : Thread nD τ).loc main_arg0) : S4096x32000.Idx → EReal) i = (a : EReal)) :
    (ce m c : S4096x1.Idx → EReal)
      = fun j => Cert.Spec.ceRow (m ((c : Thread nD τ).loc main_arg0))
          (fun r => (m ((c : Thread nD τ).loc main_arg1) : S4096.Idx → BitVec 32) (ix1 r)) (j 0) := by
  have h0 := V1_logits m c
  have h1 : (fun r : Fin 4096 => (V1 m c main_v0 : S4096x1.Idx → BitVec 32) (ix2 r 0))
      = fun r => (m ((c : Thread nD τ).loc main_arg1) : S4096.Idx → BitVec 32) (ix1 r) := funext (V1_labels m c)
  unfold ce
  rw [final0 (V1 m) c (by rw [h0]; exact hfin), h0, h1]
  rfl

theorem W2_feat (c : Dev nD) : W2 m c main_arg2 = m ((c : Thread nD τ).loc main_arg2) := by
  show Function.update (W1 m c) (Proc.devRef .tc main_v1) (ce m c) (Proc.devRef .tc main_arg2) = _
  rw [Function.update_of_ne (StableHlo.devRef_ne_of_ne (by decide))]
  show StableHlo.after hostOps0 (W0 m c) (Proc.devRef .tc main_arg2) = _
  after_results

theorem W2_ce (c : Dev nD) : W2 m c main_v1 = ce m c := by
  show Function.update (W1 m c) (Proc.devRef .tc main_v1) (ce m c) (Proc.devRef .tc main_v1) = _
  rw [Function.update_self]

theorem V3_feat (c : Dev nD) : @Eq (S4096x1024.Idx → EReal) (V3 m c main_v9) (m ((c : Thread nD τ).loc main_arg2)) := by
  show StableHlo.after hostOps1 (W2 m c) (Proc.devRef .tc main_v9) = _
  after_results
  rw [W2_feat]
  rfl

theorem V3_normCol (c : Dev nD) :
    @Eq (S4096x1.Idx → EReal) (V3 m c main_v7) (normColOf (m ((c : Thread nD τ).loc main_arg2))) := by
  show StableHlo.after hostOps1 (W2 m c) (Proc.devRef .tc main_v7) = _
  after_results
  rw [W2_feat]
  rfl

theorem V3_normRow (c : Dev nD) :
    @Eq (S1x4096.Idx → EReal) (V3 m c main_v8)
      (shapeCast S1x4096 (normColOf (m ((c : Thread nD τ).loc main_arg2))) shapeCasts_S4096x1_S1x4096) := by
  show StableHlo.after hostOps1 (W2 m c) (Proc.devRef .tc main_v8) = _
  after_results
  rw [W2_feat]
  rfl

theorem hg_eq (c : Dev nD) :
    (hg m c : S4096x1.Idx → EReal)
      = fun j => Cert.Spec.hingeRow (Cert.Spec.gram (m ((c : Thread nD τ).loc main_arg2)))
          (Cert.Spec.norm (m ((c : Thread nD τ).loc main_arg2))) (Cert.Spec.norm (m ((c : Thread nD τ).loc main_arg2))) (j 0) := by
  have h9 := V3_feat m c
  have h7 : (fun r : Fin 4096 => (V3 m c main_v7 : S4096x1.Idx → EReal) (ix2 r 0))
      = Cert.Spec.norm (m ((c : Thread nD τ).loc main_arg2)) :=
    funext fun r => by rw [V3_normCol, normColOf_apply]
  have h8 : (fun s : Fin 4096 => (V3 m c main_v8 : S1x4096.Idx → EReal) (ix2 0 s))
      = Cert.Spec.norm (m ((c : Thread nD τ).loc main_arg2)) :=
    funext fun s => by rw [V3_normRow, row_of_col_apply, normColOf_apply]
  unfold hg
  rw [final1 (V3 m) c, h9, h7, h8]
  rfl

theorem W3_mean (c : Dev nD) :
    @Eq (S_.Idx → EReal) (W3 m c main_v3)
      (Host.divf (F := Ideal) (Host.reduceAdd (F := Ideal) (ce m c : FVec Ideal S4096x1 .f32)
          (constant (F := Ideal) S_ .f32 0x00000000#32) reducesTo_S4096x1_S_d0_1 h_S_) (constant (F := Ideal) S_ .f32 0x45800000#32)) := by
  show StableHlo.after hostOps1 (W2 m c) (Proc.devRef .tc main_v3) = _
  after_results
  rw [W2_ce]

theorem W4_mean (c : Dev nD) : W4 m c main_v3 = W3 m c main_v3 := by
  show Function.update (W3 m c) (Proc.devRef .tc main_v10) (hg m c) (Proc.devRef .tc main_v3) = _
  rw [Function.update_of_ne (StableHlo.devRef_ne_of_ne (by decide))]

theorem W4_hg (c : Dev nD) : W4 m c main_v10 = hg m c := by
  show Function.update (W3 m c) (Proc.devRef .tc main_v10) (hg m c) (Proc.devRef .tc main_v10) = _
  rw [Function.update_self]

theorem W5_result (c : Dev nD) :
    @Eq (S_.Idx → EReal) (W5 m c main_v14)
      (addf (F := Ideal)
        (Host.divf (F := Ideal) (Host.reduceAdd (F := Ideal) (ce m c : FVec Ideal S4096x1 .f32)
          (constant (F := Ideal) S_ .f32 0x00000000#32) reducesTo_S4096x1_S_d0_1 h_S_) (constant (F := Ideal) S_ .f32 0x45800000#32))
        (mulf (F := Ideal) (constant (F := Ideal) S_ .f32 0x3DCCCCCD#32)
          (Host.divf (F := Ideal) (Host.reduceAdd (F := Ideal) (hg m c : FVec Ideal S4096x1 .f32)
            (constant (F := Ideal) S_ .f32 0x00000000#32) reducesTo_S4096x1_S_d0_1 h_S_) (constant (F := Ideal) S_ .f32 0x4B7FF000#32)))) := by
  show StableHlo.after hostOps2 (W4 m c) (Proc.devRef .tc main_v14) = _
  after_results
  rw [W4_mean, W4_hg, W3_mean]

end KHost

open KHost

theorem result_eq (c : Dev nD)
    (hok : Cert.Spec.Ok (m ((c : Thread nD τ).loc main_arg0)) (fun r => (m ((c : Thread nD τ).loc main_arg1) : S4096.Idx → BitVec 32) (ix1 r)) (m ((c : Thread nD τ).loc main_arg2))) :
    (W5 m c main_v14 : S_.Idx → EReal)
      = fun _ => Cert.Spec.total (m ((c : Thread nD τ).loc main_arg0)) (fun r => (m ((c : Thread nD τ).loc main_arg1) : S4096.Idx → BitVec 32) (ix1 r)) (m ((c : Thread nD τ).loc main_arg2)) := by
  funext j
  rw [W5_result, addf_apply, mulf_apply, constant_apply,
    col_total (ce m c) _ (ce_eq m c hok.finX) _ j, col_total (hg m c) _ (hg_eq m c) _ j]
  rfl

end Cert.KernelIdeal.Hand

end
-- ==== Proof.PreOk.lean ====
import proofs.«431482_j82446192214711_2_alg».proof.Pre_finite_inputs
import proofs.«431482_j82446192214711_2_alg».proof.Proof.Gen.Pre_finite_inputs
import proofs.«431482_j82446192214711_2_alg».proof.Proof.MathSpec
import Idealize.ShloMosaic.Lib.ReduceAll
import Idealize.ShloMosaic.Lib.StableHlo.Predicate
import Idealize.ShloMosaic.Lib.ValueIdx

noncomputable section

namespace Cert.Pre_finite_inputs.Hand

open Idealize.ShloMosaic Idealize.ShloMosaic.ValueIdx
open Cert.Pre_finite_inputs Cert.Pre_finite_inputs.Gen

theorem subsingleton_S_ : Subsingleton S_.Idx := ⟨fun a b => funext fun d => d.elim0⟩

theorem inf_word : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ a : ℝ, x = (a : EReal) := by
  rw [inf_word] at h
  have hlt : max x (-x) < (⊤ : EReal) := by
    simpa [Ideal.cmp, StableHlo.Predicate.ofBool_eq_one_iff] using h
  have h1 : x < ⊤ := lt_of_le_of_lt (le_max_left _ _) hlt
  have h2 : -x < ⊤ := lt_of_le_of_lt (le_max_right _ _) hlt
  have hb : x ≠ ⊥ := by
    rintro rfl
    simp at h2
  exact ⟨x.toReal, (EReal.coe_toReal h1.ne hb).symm⟩

theorem toNat_lt_of_signed (w : BitVec 32) (h1 : IntOp.cmpi .sge w 0#32 = 1#1)
    (h2 : IntOp.cmpi .slt w 32000#32 = 1#1) : w.toNat < 32000 := by
  have a1 := IntOp.cmpi_sge.1 h1
  have a2 := IntOp.cmpi_slt.1 h2
  have z0 : (0#32 : BitVec 32).toInt = 0 := by decide
  have z1 : (32000#32 : BitVec 32).toInt = 32000 := by decide
  rw [z0] at a1
  rw [z1] at a2
  rw [BitVec.toInt_eq_toNat_cond] at a1 a2
  have := w.isLt
  split at a1 <;> omega

/-- The precondition gives real logits, real features, and labels that are columns. -/
theorem ok_of_pre (x : FVec Ideal S4096x32000 .f32) (lab : IVec S4096 32) (f : FVec Ideal S4096x1024 .f32)
    (h : Cert.Pre_finite_inputs.fn (F := Ideal) x lab f = fun _ => 1#1) :
    Cert.Spec.Ok x (fun r => lab (ix1 r)) f := by
  haveI : Subsingleton S_.Idx := subsingleton_S_
  have h0 := congrFun h ValueIdx.ix0
  dsimp only [Cert.Pre_finite_inputs.fn] at h0

  obtain ⟨hxf, hl⟩ := IntOp.andi_eq_one.1 h0
  obtain ⟨hx, hf⟩ := IntOp.andi_eq_one.1 hxf
  refine ⟨fun i => ?_, fun i => ?_, fun r => ?_⟩
  · exact real_of_abs_lt (x i) (Host.reduce_andi_all _ _ _ _ _ hx i)
  · exact real_of_abs_lt (f i) (Host.reduce_andi_all _ _ _ _ _ hf i)
  · obtain ⟨g1, g2⟩ := IntOp.andi_eq_one.1 (Host.reduce_andi_all _ _ _ _ _ hl (ix1 r))
    exact toNat_lt_of_signed (lab (ix1 r)) g1 g2

end Cert.Pre_finite_inputs.Hand

end
-- ==== Proof.RefRunHand.lean ====
import proofs.«431482_j82446192214711_2_alg».proof.Proof.RefRun
import proofs.«431482_j82446192214711_2_alg».proof.Proof.RefRead

/-! The reference's run: its line of host operations cut into eight stretches, each stretch's result the matching stage of
    the values it starts from. -/

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

theorem after_append' {Val : EltTy → Type} : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_append' l₁ l₂]

theorem ofBuf_toBuf {sg : RefSig} {T : BufTy} {Val : EltTy → Type} (x : TRef sg T) (v : T.Contents Val) :
    x.ofBuf (x.toBuf v) = v := by
  obtain ⟨r, h, _, _⟩ := x
  subst h
  rfl

theorem writes_sub_of {Val : EltTy → Type} {op : HloOp τ sig Val} {Wl : List (Ref sig .tc)} (y : Ref sig .tc)
    (hw : op.writes = {Proc.devRef .tc y}) (hy : y ∈ Wl) :
    op.writes ⊆ (Wl.map (Proc.devRef (τ := τ) .tc)).toFinset := by
  rw [hw, Finset.singleton_subset_iff, List.mem_toFinset]
  exact List.mem_map_of_mem hy

def opsA : List (HloOp τ sig (Elt F)) := (ops (F := F)).take 15

abbrev WA : List (Ref sig .tc) := [main_call0_cst, main_call0_v0, main_call0_cst_0, main_call0_v1, main_call0_v2, main_call0_v3, main_call0_v4, main_call0_v5, main_call0_v6, main_call0_cst_1, main_call0_v7, main_call0_v8, main_call0_v9, main_call0_v10, main_v0]

theorem opsA_writes : (opsA : List (HloOp τ sig (Elt F))).Forall fun op => op.writes ⊆ (WA.map (Proc.devRef (τ := τ) .tc)).toFinset := by
  delta opsA ops
  simp only [List.drop_succ_cons, List.drop_zero, List.take_succ_cons, List.take_zero]
  repeat' apply And.intro
  all_goals exact writes_sub_of _ rfl (by decide)

theorem opsA_keeps (W : Valuation τ sig (Elt F)) {r : Ref sig .tc} (h : r ∉ WA) :
    after (opsA (F := F)) W (Proc.devRef .tc r) = W (Proc.devRef .tc r) :=
  after_of_writes_sub opsA W opsA_writes h

def opsB : List (HloOp τ sig (Elt F)) := ((ops (F := F)).drop 15).take 9

abbrev WB : List (Ref sig .tc) := [main_v1, main_call1_c, main_call1_v0, main_call1_v1, main_call1_c_0, main_call1_v2, main_call1_v3, main_call1_v4, main_call1_v5]

theorem opsB_writes : (opsB : List (HloOp τ sig (Elt F))).Forall fun op => op.writes ⊆ (WB.map (Proc.devRef (τ := τ) .tc)).toFinset := by
  delta opsB ops
  simp only [List.drop_succ_cons, List.drop_zero, List.take_succ_cons, List.take_zero]
  repeat' apply And.intro
  all_goals exact writes_sub_of _ rfl (by decide)

theorem opsB_keeps (W : Valuation τ sig (Elt F)) {r : Ref sig .tc} (h : r ∉ WB) :
    after (opsB (F := F)) W (Proc.devRef .tc r) = W (Proc.devRef .tc r) :=
  after_of_writes_sub opsB W opsB_writes h

def opsK : List (HloOp τ sig (Elt F)) := ((ops (F := F)).drop 24).take 14

abbrev WK : List (Ref sig .tc) := [main_call1_c_1, main_call1_c_2, main_call1_v6, main_call1_v7, main_call1_v8, main_call1_v9, main_call1_v10, main_call1_v11, main_call1_c_3, main_call1_v12, main_call1_v13, main_call1_cst, main_call1_v14, main_v2]

theorem opsK_writes : (opsK : List (HloOp τ sig (Elt F))).Forall fun op => op.writes ⊆ (WK.map (Proc.devRef (τ := τ) .tc)).toFinset := by
  delta opsK ops
  simp only [List.drop_succ_cons, List.drop_zero, List.take_succ_cons, List.take_zero]
  repeat' apply And.intro
  all_goals exact writes_sub_of _ rfl (by decide)

theorem opsK_keeps (W : Valuation τ sig (Elt F)) {r : Ref sig .tc} (h : r ∉ WK) :
    after (opsK (F := F)) W (Proc.devRef .tc r) = W (Proc.devRef .tc r) :=
  after_of_writes_sub opsK W opsK_writes h

def opsC : List (HloOp τ sig (Elt F)) := ((ops (F := F)).drop 38).take 6

abbrev WC : List (Ref sig .tc) := [main_v3, main_cst, main_v4, main_cst_0, main_v5, main_v6]

theorem opsC_writes : (opsC : List (HloOp τ sig (Elt F))).Forall fun op => op.writes ⊆ (WC.map (Proc.devRef (τ := τ) .tc)).toFinset := by
  delta opsC ops
  simp only [List.drop_succ_cons, List.drop_zero, List.take_succ_cons, List.take_zero]
  repeat' apply And.intro
  all_goals exact writes_sub_of _ rfl (by decide)

theorem opsC_keeps (W : Valuation τ sig (Elt F)) {r : Ref sig .tc} (h : r ∉ WC) :
    after (opsC (F := F)) W (Proc.devRef .tc r) = W (Proc.devRef .tc r) :=
  after_of_writes_sub opsC W opsC_writes h

def opsD : List (HloOp τ sig (Elt F)) := ((ops (F := F)).drop 44).take 4

abbrev WD : List (Ref sig .tc) := [main_call2_v0, main_call2_cst, main_call2_v1, main_v7]

theorem opsD_writes : (opsD : List (HloOp τ sig (Elt F))).Forall fun op => op.writes ⊆ (WD.map (Proc.devRef (τ := τ) .tc)).toFinset := by
  delta opsD ops
  simp only [List.drop_succ_cons, List.drop_zero, List.take_succ_cons, List.take_zero]
  repeat' apply And.intro
  all_goals exact writes_sub_of _ rfl (by decide)

theorem opsD_keeps (W : Valuation τ sig (Elt F)) {r : Ref sig .tc} (h : r ∉ WD) :
    after (opsD (F := F)) W (Proc.devRef .tc r) = W (Proc.devRef .tc r) :=
  after_of_writes_sub opsD W opsD_writes h

def opsE : List (HloOp τ sig (Elt F)) := ((ops (F := F)).drop 48).take 17

abbrev WE : List (Ref sig .tc) := [main_v8, main_v9, main_v10, main_v11, main_v12, main_v13, main_v14, main_cst_1, main_v15, main_v16, main_v17, main_cst_2, main_v18, main_v19, main_cst_3, main_v20, main_v21]

theorem opsE_writes : (opsE : List (HloOp τ sig (Elt F))).Forall fun op => op.writes ⊆ (WE.map (Proc.devRef (τ := τ) .tc)).toFinset := by
  delta opsE ops
  simp only [List.drop_succ_cons, List.drop_zero, List.take_succ_cons, List.take_zero]
  repeat' apply And.intro
  all_goals exact writes_sub_of _ rfl (by decide)

theorem opsE_keeps (W : Valuation τ sig (Elt F)) {r : Ref sig .tc} (h : r ∉ WE) :
    after (opsE (F := F)) W (Proc.devRef .tc r) = W (Proc.devRef .tc r) :=
  after_of_writes_sub opsE W opsE_writes h

def opsG : List (HloOp τ sig (Elt F)) := ((ops (F := F)).drop 65).take 10

abbrev WG : List (Ref sig .tc) := [main_v22, main_v23, main_c, main_v24, main_v25, main_v26, main_v27, main_cst_4, main_v28, main_v29]

theorem opsG_writes : (opsG : List (HloOp τ sig (Elt F))).Forall fun op => op.writes ⊆ (WG.map (Proc.devRef (τ := τ) .tc)).toFinset := by
  delta opsG ops
  simp only [List.drop_succ_cons, List.drop_zero, List.take_succ_cons, List.take_zero]
  repeat' apply And.intro
  all_goals exact writes_sub_of _ rfl (by decide)

theorem opsG_keeps (W : Valuation τ sig (Elt F)) {r : Ref sig .tc} (h : r ∉ WG) :
    after (opsG (F := F)) W (Proc.devRef .tc r) = W (Proc.devRef .tc r) :=
  after_of_writes_sub opsG W opsG_writes h

def opsH : List (HloOp τ sig (Elt F)) := (ops (F := F)).drop 75

abbrev WH : List (Ref sig .tc) := [main_v30, main_cst_5, main_v31, main_cst_6, main_v32, main_cst_7, main_v33, main_v34]

theorem opsH_writes : (opsH : List (HloOp τ sig (Elt F))).Forall fun op => op.writes ⊆ (WH.map (Proc.devRef (τ := τ) .tc)).toFinset := by
  delta opsH ops
  simp only [List.drop_succ_cons, List.drop_zero, List.take_succ_cons, List.take_zero]
  repeat' apply And.intro
  all_goals exact writes_sub_of _ rfl (by decide)

theorem opsH_keeps (W : Valuation τ sig (Elt F)) {r : Ref sig .tc} (h : r ∉ WH) :
    after (opsH (F := F)) W (Proc.devRef .tc r) = W (Proc.devRef .tc r) :=
  after_of_writes_sub opsH W opsH_writes h

set_option maxRecDepth 8192 in
theorem ops_split : (ops : List (HloOp τ sig (Elt F))) = opsA ++ (opsB ++ (opsK ++ (opsC ++ (opsD ++ (opsE ++ (opsG ++ opsH)))))) := rfl

set_option maxHeartbeats 400000 in

theorem chunkA (W : Valuation τ sig (Elt F)) :
    after (opsA (F := F)) W (Proc.devRef .tc main_v0) = val_main_v0 (F := F) (W (Proc.devRef .tc main_arg0)) := by
  delta opsA ops
  simp only [List.drop_succ_cons, List.drop_zero, List.take_succ_cons, List.take_zero]
  after_results
  simp only [ofBuf_toBuf]
  rfl

set_option maxHeartbeats 400000 in

theorem chunkB (W : Valuation τ sig (Elt F)) (x1 : (⟨S4096, .i32⟩ : BufTy).Contents (Elt F))
    (h1 : W (Proc.devRef .tc main_arg1) = x1) :
    after (opsB (F := F)) W (Proc.devRef .tc main_call1_v5) = val_main_call1_v5 (F := F) x1 := by
  delta opsB ops
  simp only [List.drop_succ_cons, List.drop_zero, List.take_succ_cons, List.take_zero]
  after_results
  simp only [ofBuf_toBuf]
  rw [h1]
  rfl

set_option maxHeartbeats 400000 in

theorem chunkK (W : Valuation τ sig (Elt F)) (x0 : (⟨S4096x32000, .f32⟩ : BufTy).Contents (Elt F)) (x1 : (⟨S4096, .i32⟩ : BufTy).Contents (Elt F))
    (h0 : W (Proc.devRef .tc main_v0) = val_main_v0 (F := F) x0) (h5 : W (Proc.devRef .tc main_call1_v5) = val_main_call1_v5 (F := F) x1) :
    after (opsK (F := F)) W (Proc.devRef .tc main_v2) = val_main_v2 (F := F) x0 x1 := by
  delta opsK ops
  simp only [List.drop_succ_cons, List.drop_zero, List.take_succ_cons, List.take_zero]
  after_results
  simp only [ofBuf_toBuf]
  rw [h0, h5]
  rfl

set_option maxHeartbeats 400000 in

theorem chunkC (W : Valuation τ sig (Elt F)) (x0 : (⟨S4096x32000, .f32⟩ : BufTy).Contents (Elt F)) (x1 : (⟨S4096, .i32⟩ : BufTy).Contents (Elt F))
    (h2 : W (Proc.devRef .tc main_v2) = val_main_v2 (F := F) x0 x1) :
    after (opsC (F := F)) W (Proc.devRef .tc main_v6) = val_main_v6 (F := F) x0 x1 := by
  delta opsC ops
  simp only [List.drop_succ_cons, List.drop_zero, List.take_succ_cons, List.take_zero]
  after_results
  rw [h2]
  rfl

set_option maxHeartbeats 400000 in

theorem chunkD (W : Valuation τ sig (Elt F)) (x2 : (⟨S4096x1024, .f32⟩ : BufTy).Contents (Elt F))
    (h2 : W (Proc.devRef .tc main_arg2) = x2) :
    after (opsD (F := F)) W (Proc.devRef .tc main_v7) = val_main_v7 (F := F) x2 := by
  delta opsD ops
  simp only [List.drop_succ_cons, List.drop_zero, List.take_succ_cons, List.take_zero]
  after_results
  simp only [ofBuf_toBuf]
  rw [h2]
  rfl

set_option maxHeartbeats 400000 in

theorem chunkE (W : Valuation τ sig (Elt F)) (x2 : (⟨S4096x1024, .f32⟩ : BufTy).Contents (Elt F))
    (h7 : W (Proc.devRef .tc main_v7) = val_main_v7 (F := F) x2) (h2 : W (Proc.devRef .tc main_arg2) = x2) :
    after (opsE (F := F)) W (Proc.devRef .tc main_v21) = val_main_v21 (F := F) x2 := by
  delta opsE ops
  simp only [List.drop_succ_cons, List.drop_zero, List.take_succ_cons, List.take_zero]
  after_results
  rw [h7, h2]
  rfl

set_option maxHeartbeats 400000 in

theorem chunkG (W : Valuation τ sig (Elt F)) :
    after (opsG (F := F)) W (Proc.devRef .tc main_v29) = val_main_v29 (F := F) := by
  delta opsG ops
  simp only [List.drop_succ_cons, List.drop_zero, List.take_succ_cons, List.take_zero]
  after_results
  rfl

set_option maxHeartbeats 400000 in

theorem chunkH (W : Valuation τ sig (Elt F)) (x0 : (⟨S4096x32000, .f32⟩ : BufTy).Contents (Elt F)) (x1 : (⟨S4096, .i32⟩ : BufTy).Contents (Elt F)) (x2 : (⟨S4096x1024, .f32⟩ : BufTy).Contents (Elt F))
    (h6 : W (Proc.devRef .tc main_v6) = val_main_v6 (F := F) x0 x1) (h21 : W (Proc.devRef .tc main_v21) = val_main_v21 (F := F) x2)
    (h29 : W (Proc.devRef .tc main_v29) = val_main_v29 (F := F)) :
    after (opsH (F := F)) W (Proc.devRef .tc main_v34) = val_main_v34 (F := F) x0 x1 x2 := by
  delta opsH ops
  simp only [List.drop_succ_cons, List.drop_zero, List.take_succ_cons, List.take_zero]
  after_results
  rw [h6, h21, h29]
  rfl

theorem after_result (W0 : Valuation τ sig (Elt F)) :
    after (ops (F := F)) W0 (Proc.devRef .tc main_v34)
      = val_main_v34 (F := F) (W0 (Proc.devRef .tc main_arg0)) (W0 (Proc.devRef .tc main_arg1)) (W0 (Proc.devRef .tc main_arg2)) := by
  rw [ops_split, after_append', after_append', after_append', after_append', after_append', after_append', after_append']
  have a0 := chunkA W0
  have a1 : after (opsA (F := F)) W0 (Proc.devRef .tc main_arg1) = W0 (Proc.devRef .tc main_arg1) := opsA_keeps W0 (by decide)
  have a2 : after (opsA (F := F)) W0 (Proc.devRef .tc main_arg2) = W0 (Proc.devRef .tc main_arg2) := opsA_keeps W0 (by decide)
  generalize after (opsA (F := F)) W0 = V1 at a0 a1 a2 ⊢
  have b5 := chunkB V1 _ a1
  have b0 : after (opsB (F := F)) V1 (Proc.devRef .tc main_v0) = _ := (opsB_keeps V1 (by decide)).trans a0
  have b3 : after (opsB (F := F)) V1 (Proc.devRef .tc main_arg2) = W0 (Proc.devRef .tc main_arg2) := (opsB_keeps V1 (by decide)).trans a2
  generalize after (opsB (F := F)) V1 = V2 at b5 b0 b3 ⊢
  have k2 := chunkK V2 _ _ b0 b5
  have k3 : after (opsK (F := F)) V2 (Proc.devRef .tc main_arg2) = W0 (Proc.devRef .tc main_arg2) := (opsK_keeps V2 (by decide)).trans b3
  generalize after (opsK (F := F)) V2 = V3 at k2 k3 ⊢
  have c6 := chunkC V3 _ _ k2
  have c3 : after (opsC (F := F)) V3 (Proc.devRef .tc main_arg2) = W0 (Proc.devRef .tc main_arg2) := (opsC_keeps V3 (by decide)).trans k3
  generalize after (opsC (F := F)) V3 = V4 at c6 c3 ⊢
  have d7 := chunkD V4 _ c3
  have d6 : after (opsD (F := F)) V4 (Proc.devRef .tc main_v6) = _ := (opsD_keeps V4 (by decide)).trans c6
  have d3 : after (opsD (F := F)) V4 (Proc.devRef .tc main_arg2) = W0 (Proc.devRef .tc main_arg2) := (opsD_keeps V4 (by decide)).trans c3
  generalize after (opsD (F := F)) V4 = V5 at d7 d6 d3 ⊢
  have e21 := chunkE V5 _ d7 d3
  have e6 : after (opsE (F := F)) V5 (Proc.devRef .tc main_v6) = _ := (opsE_keeps V5 (by decide)).trans d6
  generalize after (opsE (F := F)) V5 = V6 at e21 e6 ⊢
  have g29 := chunkG V6
  have g21 : after (opsG (F := F)) V6 (Proc.devRef .tc main_v21) = _ := (opsG_keeps V6 (by decide)).trans e21
  have g6 : after (opsG (F := F)) V6 (Proc.devRef .tc main_v6) = _ := (opsG_keeps V6 (by decide)).trans e6
  generalize after (opsG (F := F)) V6 = V7 at g29 g21 g6 ⊢
  exact chunkH V7 _ _ _ g6 g21 g29

theorem after_arg (W0 : Valuation τ sig (Elt F)) {r : Ref sig .tc}
    (hA : r ∉ WA) (hB : r ∉ WB) (hK : r ∉ WK) (hC : r ∉ WC) (hD : r ∉ WD) (hE : r ∉ WE) (hG : r ∉ WG) (hH : r ∉ WH) :
    after (ops (F := F)) W0 (Proc.devRef .tc r) = W0 (Proc.devRef .tc r) := by
  rw [ops_split, after_append', after_append', after_append', after_append', after_append', after_append', after_append',
    opsH_keeps _ hH, opsG_keeps _ hG, opsE_keeps _ hE, opsD_keeps _ hD, opsC_keeps _ hC, opsK_keeps _ hK, opsB_keeps _ hB, opsA_keeps _ hA]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34) = val_main_v34 (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v34).trans (after_result (launchContents m c)),
      (h c main_arg0).trans (after_arg (launchContents m c) (by decide) (by decide) (by decide) (by decide) (by decide) (by decide) (by decide) (by decide)),
      (h c main_arg1).trans (after_arg (launchContents m c) (by decide) (by decide) (by decide) (by decide) (by decide) (by decide) (by decide) (by decide)),
      (h c main_arg2).trans (after_arg (launchContents m c) (by decide) (by decide) (by decide) (by decide) (by decide) (by decide) (by decide) (by decide))⟩)
    (run_seq scopedRefs_eq scopedSems_eq defs main (fun _ => ops) main_eq (fun _ => ops_sub) m ρ)

end Cert.ReferenceIdeal.RunHand

end
-- ==== Proof.RefValue.lean ====
import proofs.«431482_j82446192214711_2_alg».proof.Proof.RefRead
import proofs.«431482_j82446192214711_2_alg».proof.Proof.MathSpec
import Idealize.ShloMosaic.Lib.Pipeline.Value
import Idealize.ShloMosaic.Lib.ValueLayout
import Idealize.ShloMosaic.PureOps.Ideal.Laws

/-! The reference's last stage is `Cert.Spec.total`: its log-softmax row by row is (x - max) - log sum exp (x - max); for
    reals negation passes through the sum and the quotient; the hinge matrix times one minus the identity sums to the
    off-diagonal pairs. -/

noncomputable section

open scoped BigOperators

namespace Cert.ReferenceIdeal.RefValue

open Cert.ReferenceIdeal Cert.ReferenceIdeal.Gen Idealize.ShloMosaic Idealize.ShloMosaic.ValueIdx
open Cert.ReferenceIdeal.ReadP
open Cert.Spec (coe_sum ofBits_neg_inf)

theorem ofBits_4096 : Ideal.ofBits .f32 0x45800000#32 = ((4096 : ℝ) : EReal) := by
  simp [Ideal.ofBits, Ideal.ieee, -EReal.coe_mul]; norm_num

theorem rowMax_real (x : Cert.Spec.SX.Idx → EReal) (hx : ∀ i, ∃ a : ℝ, x i = (a : EReal)) (r : Fin 4096) :
    ∃ m : ℝ, Cert.Spec.rowMax x r = (m : EReal) := by
  unfold Cert.Spec.rowMax
  obtain ⟨c, _, hc⟩ := Finset.exists_mem_eq_sup Finset.univ ⟨(⟨0, by norm_num⟩ : Fin 32000), Finset.mem_univ _⟩
    (fun c : Fin 32000 => x (ix2 r c))
  obtain ⟨a, ha⟩ := hx (ix2 r c)
  exact ⟨a, hc.trans ha⟩

theorem rowSumExp_real (x : Cert.Spec.SX.Idx → EReal) (hx : ∀ i, ∃ a : ℝ, x i = (a : EReal)) (r : Fin 4096) :
    ∃ s : ℝ, 0 < s ∧ Cert.Spec.rowSumExp x r = (s : EReal) := by
  obtain ⟨m, hm⟩ := rowMax_real x hx r
  choose a ha using hx
  refine ⟨∑ c : Fin 32000, Real.exp (a (ix2 r c) - m),
    Finset.sum_pos (fun c _ => Real.exp_pos _) ⟨(⟨0, by norm_num⟩ : Fin 32000), Finset.mem_univ _⟩, ?_⟩
  unfold Cert.Spec.rowSumExp
  rw [coe_sum, hm]
  refine Finset.sum_congr rfl fun c _ => ?_
  rw [ha (ix2 r c), ← EReal.coe_sub, Ideal.exp_coe]

theorem ceRow_real (x : Cert.Spec.SX.Idx → EReal) (lab : Fin 4096 → BitVec 32)
    (hx : ∀ i, ∃ a : ℝ, x i = (a : EReal)) (r : Fin 4096) (hl : (lab r).toNat < 32000) :
    ∃ t : ℝ, (x (ix2 r ⟨(lab r).toNat, hl⟩) - Cert.Spec.rowMax x r) - Ideal.log (Cert.Spec.rowSumExp x r) = ((-t : ℝ) : EReal)
      ∧ Cert.Spec.ceRow x lab r = (t : EReal) := by
  obtain ⟨m, hm⟩ := rowMax_real x hx r
  obtain ⟨s, hs, hS⟩ := rowSumExp_real x hx r
  obtain ⟨a, ha⟩ := hx (ix2 r ⟨(lab r).toNat, hl⟩)
  refine ⟨m + Real.log s - a, ?_, ?_⟩
  · rw [ha, hm, hS, Ideal.log_coe, if_neg (not_le.mpr hs), ← EReal.coe_sub, ← EReal.coe_sub]
    exact congrArg _ (by ring)
  · unfold Cert.Spec.ceRow Cert.Spec.picked
    rw [dif_pos hl, ha, hm, hS, Ideal.log_coe, if_neg (not_le.mpr hs), ← EReal.coe_add, ← EReal.coe_sub]

/-- Negation passes through a finite sum of reals and a quotient by a nonzero real. -/
theorem neg_div_sum {ι : Type} [Fintype ι] (t : ι → ℝ) (c : ℝ) (hc : c ≠ 0) :
    -(Ideal.div (∑ i, (((-t i : ℝ)) : EReal)) (c : EReal)) = Ideal.div (∑ i, (t i : EReal)) (c : EReal) := by
  rw [Ideal.div_coe hc, Ideal.div_coe hc, ← coe_sum, ← coe_sum, ← EReal.coe_mul, ← EReal.coe_mul, ← EReal.coe_neg]
  refine congrArg _ ?_
  rw [Finset.sum_neg_distrib]
  ring

theorem ofBits_one : Ideal.ofBits .f32 0x3F800000#32 = 1 := by
  simp [Ideal.ofBits, Ideal.ieee, -EReal.coe_mul]; norm_num

theorem norm_eq (x2 : FVec Ideal S4096x1024 .f32) (r : Fin 4096) :
    val_main_v7 (F := Ideal) x2 (ix1 r) = Cert.Spec.norm x2 r := by
  rw [val_main_v7_apply, val_main_call2_v1_apply, val_main_call2_cst_apply]
  have e : ∀ k, idx_main_call2_v1 (ix1 r) k = ix2 r k := fun k =>
    funext fun a => Fin.ext (by match a with | ⟨0, _⟩ => rfl | ⟨1, _⟩ => rfl)
  simp only [Ideal.hostUnary_sqrt_def, Ideal.ofBits_def, Ideal.ofBits_zero_f32, zero_add, val_main_call2_v0_apply,
    Ideal.mulf_def, e]
  rfl

theorem gram_eq (x2 : FVec Ideal S4096x1024 .f32) (r s : Fin 4096) :
    val_main_v9 (F := Ideal) x2 (ix2 r s) = Cert.Spec.gram x2 r s := by
  rw [val_main_v9_apply]
  have el : ∀ k, lidx_main_v9 (ix2 r s) k = ix2 r k := fun k =>
    funext fun a => Fin.ext (by match a with | ⟨0, _⟩ => rfl | ⟨1, _⟩ => rfl)
  have er : ∀ k, idx_main_v8 (ridx_main_v9 (ix2 r s) k) = ix2 s k := fun k =>
    funext fun a => Fin.ext (by match a with | ⟨0, _⟩ => rfl | ⟨1, _⟩ => rfl)
  simp only [val_main_v8_apply, el, er]
  rfl

theorem diag_word (r s : Fin 4096) :
    FloatOps.uitofp (F := Ideal) .f32 (IntOp.cmpi .eq (IntOp.addi (BitVec.ofNat 32 r.val) 0#32) (BitVec.ofNat 32 s.val))
      = if r = s then 1 else 0 := by
  have hr := r.isLt
  have hs := s.isLt
  show (((IntOp.cmpi .eq (IntOp.addi (BitVec.ofNat 32 r.val) 0#32) (BitVec.ofNat 32 s.val)).toNat : ℝ) : EReal) = _
  by_cases h : r = s
  · subst h
    rw [if_pos rfl]
    simp [IntOp.cmpi, IntOp.addi]
  · rw [if_neg h]
    have hne : ¬ (BitVec.ofNat 32 r.val = BitVec.ofNat 32 s.val) := fun e => h (Fin.ext (by
      have := congrArg BitVec.toNat e
      simp only [BitVec.toNat_ofNat] at this
      omega))
    simp [IntOp.cmpi, IntOp.addi, hne]

theorem mask_eq (r s : Fin 4096) :
    val_main_v27 (F := Ideal) (ix2 r s) = if r = s then 1 else 0 := by
  rw [val_main_v27_apply, val_main_v26_apply, val_main_v25_apply, val_main_v22_apply, val_main_v23_apply,
    val_main_v24_apply, val_main_c_apply]
  exact diag_word r s

theorem summand_eq (x2 : FVec Ideal S4096x1024 .f32) (r s : Fin 4096) :
    val_main_v30 (F := Ideal) x2 (ix2 r s)
      = if r ≠ s then Cert.Spec.hinge (Cert.Spec.gram x2) (Cert.Spec.norm x2) (Cert.Spec.norm x2) r s else 0 := by
  rw [val_main_v30_apply, val_main_v21_apply, val_main_v19_apply, val_main_v17_apply, val_main_v16_apply,
    val_main_v14_apply, val_main_v12_apply, val_main_v13_apply, val_main_v10_apply, val_main_v11_apply,
    val_main_v15_apply, val_main_cst_1_apply, val_main_v18_apply, val_main_cst_2_apply, val_main_v20_apply,
    val_main_cst_3_apply, val_main_v29_apply, val_main_v28_apply, val_main_cst_4_apply, mask_eq, gram_eq]
  have e1 : idx_main_v10 (idx_main_v12 (ix2 r s)) = ix1 r :=
    funext fun a => Fin.ext (by match a with | ⟨0, _⟩ => rfl)
  have e2 : idx_main_v11 (idx_main_v13 (ix2 r s)) = ix1 s :=
    funext fun a => Fin.ext (by match a with | ⟨0, _⟩ => rfl)
  rw [e1, e2, norm_eq, norm_eq]
  simp only [Ideal.mulf_def, Ideal.subf_def, Ideal.maximumf_def, Ideal.hostDivf_def, Ideal.ofBits_def,
    Ideal.ofBits_zero_f32, ofBits_one]
  unfold Cert.Spec.hinge
  by_cases h : r = s
  · have h11 : (1 : EReal) - 1 = 0 := by rw [← EReal.coe_one, ← EReal.coe_sub, sub_self, EReal.coe_zero]
    rw [if_pos h, if_neg (not_not.mpr h), h11, mul_zero]
  · rw [if_neg h, if_pos h]
    simp only [sub_zero, mul_one]

theorem pairs_sum_eq (x2 : FVec Ideal S4096x1024 .f32) :
    ∑ j : S4096x4096.Idx, val_main_v30 (F := Ideal) x2 j
      = ∑ r : Fin 4096, Cert.Spec.hingeRow (Cert.Spec.gram x2) (Cert.Spec.norm x2) (Cert.Spec.norm x2) r := by
  rw [sum_idx2]
  refine Finset.sum_congr rfl fun r _ => ?_
  unfold Cert.Spec.hingeRow
  exact Finset.sum_congr rfl fun s _ => summand_eq x2 r s

theorem hinge_half (x2 : FVec Ideal S4096x1024 .f32) (i : S_.Idx) :
    val_main_v33 (F := Ideal) x2 i
      = Cert.Spec.cAlpha * Ideal.div (∑ r : Fin 4096,
          Cert.Spec.hingeRow (Cert.Spec.gram x2) (Cert.Spec.norm x2) (Cert.Spec.norm x2) r) Cert.Spec.cPairs := by
  rw [val_main_v33_apply, val_main_cst_7_apply, val_main_v32_apply, val_main_cst_6_apply, val_main_v31_apply,
    val_main_cst_5_apply, pairs_sum_eq]
  simp only [Ideal.mulf_def, Ideal.hostDivf_def, Ideal.ofBits_def, Ideal.ofBits_zero_f32, zero_add]

theorem fold_max_bot {ι : Type} (s : Finset ι) (f : ι → EReal) :
    s.fold (FloatOps.maximumf (F := Ideal) (φ := .f32)) ⊥ f = s.sup f := by
  classical
  induction s using Finset.induction_on with
  | empty => rfl
  | insert a s ha ih =>
    rw [Finset.fold_insert ha, Finset.sup_insert, ih]
    rfl

theorem rowMax_eq (x0 : FVec Ideal S4096x32000 .f32) (r : Fin 4096) :
    val_main_call0_v2 (F := Ideal) x0 (ix1 r) = Cert.Spec.rowMax x0 r := by
  rw [val_main_call0_v2_apply, val_main_call0_v1_apply, val_main_call0_cst_0_apply]
  unfold val_main_call0_v0
  rw [Host.reduce_eq_fold_single FloatOps.maximumf x0 _ reducesTo_S4096x32000_S4096_d1 (by decide) h_S_,
    val_main_call0_cst_apply, Ideal.maximumf_def, Ideal.ofBits_def, ofBits_neg_inf, max_eq_right bot_le]
  refine (fold_max_bot _ _).trans ?_
  unfold Cert.Spec.rowMax
  refine congrArg (Finset.sup Finset.univ) (funext fun c => ?_)
  exact congrArg x0 (funext fun a => Fin.ext (by match a with | ⟨0, _⟩ => rfl | ⟨1, _⟩ => rfl))

theorem rowSumExp_eq (x0 : FVec Ideal S4096x32000 .f32) (r : Fin 4096) :
    val_main_call0_v7 (F := Ideal) x0 (ix1 r) = Cert.Spec.rowSumExp x0 r := by
  rw [val_main_call0_v7_apply, val_main_call0_cst_1_apply]
  have e1 : ∀ k, idx_main_call0_v7 (ix1 r) k = ix2 r k := fun k =>
    funext fun a => Fin.ext (by match a with | ⟨0, _⟩ => rfl | ⟨1, _⟩ => rfl)
  have e2 : ∀ k : Fin 32000, idx_main_call0_v3 (idx_main_call0_v4 (ix2 r k)) = ix1 r := fun k =>
    funext fun a => Fin.ext (by match a with | ⟨0, _⟩ => rfl)
  simp only [Ideal.ofBits_def, Ideal.ofBits_zero_f32, zero_add, val_main_call0_v6_apply, Ideal.hostUnary_exp_def,
    val_main_call0_v5_apply, Ideal.subf_def, val_main_call0_v4_apply, val_main_call0_v3_apply, e1, e2, rowMax_eq]
  rfl

theorem logp_eq (x0 : FVec Ideal S4096x32000 .f32) (r : Fin 4096) (c : Fin 32000) :
    val_main_v0 (F := Ideal) x0 (ix2 r c)
      = (x0 (ix2 r c) - Cert.Spec.rowMax x0 r) - Ideal.log (Cert.Spec.rowSumExp x0 r) := by
  rw [val_main_v0_apply, val_main_call0_v5_apply, val_main_call0_v4_apply, val_main_call0_v3_apply,
    val_main_call0_v10_apply, val_main_call0_v9_apply, val_main_call0_v8_apply]
  have e2 : idx_main_call0_v3 (idx_main_call0_v4 (ix2 r c)) = ix1 r :=
    funext fun a => Fin.ext (by match a with | ⟨0, _⟩ => rfl)
  have e3 : idx_main_call0_v8 (idx_main_call0_v10 (ix2 r c)) = ix1 r :=
    funext fun a => Fin.ext (by match a with | ⟨0, _⟩ => rfl)
  rw [e2, e3, rowMax_eq, rowSumExp_eq, Ideal.subf_def, Ideal.subf_def, Ideal.hostUnary_log_def]

theorem lab_facts (lab : BitVec 32) (h : lab.toNat < 32000) :
    IntOp.cmpi .slt lab 0#32 = 0#1 ∧ IntOp.cmpi .sge lab 0#32 = 1#1 ∧ IntOp.cmpi .sle lab 31999#32 = 1#1
      ∧ lab.toInt.toNat = lab.toNat := by
  have hi : lab.toInt = (lab.toNat : Int) := BitVec.toInt_eq_toNat_of_lt (by omega)
  refine ⟨?_, ?_, ?_, ?_⟩
  · simp only [IntOp.cmpi, BitVec.slt, hi]
    have : ¬ ((lab.toNat : Int) < 0) := by omega
    simp [this]
  · simp only [IntOp.cmpi, BitVec.sle, hi]
    simp
  · simp only [IntOp.cmpi, BitVec.sle, hi]
    have : (31999#32 : BitVec 32).toInt = 31999 := by decide
    rw [this]
    have : (lab.toNat : Int) ≤ 31999 := by omega
    simp [this]
  · rw [hi]; rfl

theorem fold_fin_one {α : Type} (n : Nat) (hn : n = 1) (op : α → α → α) [Std.Commutative op] [Std.Associative op]
    (b : α) (f : Fin n → α) : (Finset.univ : Finset (Fin n)).fold op b f = op (f ⟨0, by omega⟩) b := by
  subst hn
  rw [Finset.univ_unique, Finset.fold_singleton]
  rfl

theorem start_eq (x1 : IVec S4096 32) (r : Fin 4096) (h : (x1 (ix1 r)).toNat < 32000) :
    val_main_call1_v5 (F := Ideal) x1 (ix3 r (0 : Fin 1) (0 : Fin 1)) = x1 (ix1 r) := by
  rw [val_main_call1_v5_apply, val_main_call1_v4_apply, val_main_call1_v1_apply, val_main_call1_v3_apply,
    val_main_v1_apply, val_main_call1_v0_apply, val_main_call1_c_apply, val_main_call1_v2_apply,
    val_main_call1_c_0_apply]
  have e : idx_main_v1 (idx_main_call1_v5 (ix3 r (0 : Fin 1) (0 : Fin 1))) = ix1 r :=
    funext fun a => Fin.ext (by
      match a with
      | ⟨0, _⟩ => show ((r.val * 1 + 0) * 1 + 0) / 1 = r.val; omega)
  rw [e, (lab_facts _ h).1, select_zero]

theorem inrange_eq (x1 : IVec S4096 32) (r : Fin 4096) (h : (x1 (ix1 r)).toNat < 32000) :
    val_main_call1_v12 (F := Ideal) x1 (ix2 r (0 : Fin 1)) = 1#1 := by
  have hR : S4096x1x1.Reduces [2] S4096x1 := by decide
  unfold val_main_call1_v12
  rw [Host.reduce_eq_fold_single IntOp.andi _ _ reducesTo_S4096x1x1_S4096x1_d2 hR h_S_, val_main_call1_c_3_apply]
  refine (fold_fin_one (S4096x1x1.size 2) rfl IntOp.andi _ _).trans ?_
  show IntOp.andi (val_main_call1_v11 (F := Ideal) x1 (hR.lift (ix2 r (0 : Fin 1)) _)) 1#1 = 1#1
  have e : ∀ k : Fin (S4096x1x1.size 2), (hR.lift (ix2 r (0 : Fin 1)) k) = ix3 r (0 : Fin 1) (0 : Fin 1) := fun k =>
    funext fun a => Fin.ext (by
      match a with
      | ⟨0, _⟩ => rfl
      | ⟨1, _⟩ => rfl
      | ⟨2, _⟩ => show k.val = 0; have := k.isLt; show k.val = 0; have h1 : S4096x1x1.size 2 = 1 := rfl; omega)
  rw [e, val_main_call1_v11_apply, val_main_call1_v7_apply, val_main_call1_v10_apply, start_eq x1 r h,
    val_main_call1_v6_apply, val_main_call1_c_2_apply, val_main_call1_v9_apply, val_main_call1_v8_apply,
    val_main_call1_c_1_apply, (lab_facts _ h).2.1, (lab_facts _ h).2.2.1]
  decide

theorem gather_axis0 (idx : IVec S4096x1x1 32) (j : S4096x1.Idx) :
    (gather_S4096x32000_S4096x1x1_S4096x1_n_1_0_0_1_2_11.operandIdx j idx 0).val = (j 0).val := by
  show gather_S4096x32000_S4096x1x1_S4096x1_n_1_0_0_1_2_11.start j idx 0
      + gather_S4096x32000_S4096x1x1_S4096x1_n_1_0_0_1_2_11.batchCoord j 0
      + gather_S4096x32000_S4096x1x1_S4096x1_n_1_0_0_1_2_11.offCoord j 0 = _
  rw [GatherDims.start_batching _ _ _ _ (List.mem_singleton.mpr rfl),
    GatherDims.offCoord_eq_zero _ _ _ (fun h => ((GatherDims.mem_sKept _ _).mp h).2 (List.mem_singleton.mpr rfl))]
  unfold GatherDims.batchCoord
  rw [dif_pos (show (0 : Fin 2) ∈ gather_S4096x32000_S4096x1x1_S4096x1_n_1_0_0_1_2_11.operandBatchingDims from
    List.mem_singleton.mpr rfl)]
  simp only [Nat.zero_add, Nat.add_zero]
  rfl

theorem gather_axis1 (idx : IVec S4096x1x1 32) (j : S4096x1.Idx) :
    (gather_S4096x32000_S4096x1x1_S4096x1_n_1_0_0_1_2_11.operandIdx j idx 1).val
      = min (idx (takeIdx j)).toInt.toNat 31999 := by
  show gather_S4096x32000_S4096x1x1_S4096x1_n_1_0_0_1_2_11.start j idx 1
      + gather_S4096x32000_S4096x1x1_S4096x1_n_1_0_0_1_2_11.batchCoord j 1
      + gather_S4096x32000_S4096x1x1_S4096x1_n_1_0_0_1_2_11.offCoord j 1 = _
  rw [GatherDims.batchCoord_eq_zero _ _ _ (by decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gather_S4096x32000_S4096x1x1_S4096x1_n_1_0_0_1_2_11.startIndexMap from
    List.mem_singleton.mpr rfl)]
  have hsi : gather_S4096x32000_S4096x1x1_S4096x1_n_1_0_0_1_2_11.siIdx j
      ⟨List.idxOf (1 : Fin 2) gather_S4096x32000_S4096x1x1_S4096x1_n_1_0_0_1_2_11.startIndexMap,
        List.idxOf_lt_length_iff.2 (List.mem_singleton.mpr rfl)⟩ = takeIdx j := by
    funext b; refine Fin.ext ?_
    match b with
    | ⟨0, _⟩ => rfl
    | ⟨1, _⟩ => rfl
    | ⟨2, _⟩ => rfl
  rw [hsi]
  rfl

theorem picked_stage (x0 : FVec Ideal S4096x32000 .f32) (x1 : IVec S4096 32) (r : Fin 4096)
    (h : (x1 (ix1 r)).toNat < 32000) :
    val_main_v3 (F := Ideal) x0 x1 (ix1 r) = val_main_v0 (F := Ideal) x0 (ix2 r ⟨(x1 (ix1 r)).toNat, h⟩) := by
  rw [val_main_v3_apply, val_main_v2_apply]
  have e : idx_main_v3 (ix1 r) = ix2 r (0 : Fin 1) :=
    funext fun a => Fin.ext (by
      match a with
      | ⟨0, _⟩ => exact Nat.div_one _
      | ⟨1, _⟩ => rfl)
  rw [e, inrange_eq x1 r h, select_one]
  unfold val_main_call1_v13
  generalize val_main_v0 (F := Ideal) x0 = y
  show y (gather_S4096x32000_S4096x1x1_S4096x1_n_1_0_0_1_2_11.operandIdx (ix2 r (0 : Fin 1))
    (val_main_call1_v5 (F := Ideal) x1)) = _
  refine congrArg y (funext fun a => Fin.ext ?_)
  have et : takeIdx (ix2 r (0 : Fin 1)) = ix3 r (0 : Fin 1) (0 : Fin 1) :=
    funext fun b => Fin.ext (by
      match b with
      | ⟨0, _⟩ => rfl
      | ⟨1, _⟩ => rfl
      | ⟨2, _⟩ => rfl)
  match a with
  | ⟨0, _⟩ => exact gather_axis0 _ _
  | ⟨1, _⟩ =>
    refine (gather_axis1 _ _).trans ?_
    rw [et, start_eq x1 r h, (lab_facts _ h).2.2.2]
    exact Nat.min_eq_left (by omega)

theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

theorem ce_half (x0 : FVec Ideal S4096x32000 .f32) (x1 : IVec S4096 32)
    (hx : ∀ i, ∃ a : ℝ, x0 i = (a : EReal)) (hl : ∀ r : Fin 4096, (x1 (ix1 r)).toNat < 32000) (i : S_.Idx) :
    val_main_v6 (F := Ideal) x0 x1 i
      = Ideal.div (∑ r : Fin 4096, Cert.Spec.ceRow x0 (fun r => x1 (ix1 r)) r) Cert.Spec.c4096 := by
  rw [val_main_v6_apply, val_main_v5_apply, val_main_v4_apply, val_main_cst_apply, val_main_cst_0_apply, sum_idx1]
  simp only [Ideal.hostNegf_def, Ideal.negf_def, Ideal.hostDivf_def, Ideal.ofBits_def, Ideal.ofBits_zero_f32, zero_add]
  choose t ht using fun r : Fin 4096 => ceRow_real x0 (fun r => x1 (ix1 r)) hx r (hl r)
  have h1 : ∀ r : Fin 4096, val_main_v3 (F := Ideal) x0 x1 (ix1 r) = ((-t r : ℝ) : EReal) := fun r => by
    rw [picked_stage x0 x1 r (hl r), logp_eq]
    exact (ht r).1
  rw [Finset.sum_congr rfl (fun r _ => h1 r), Finset.sum_congr rfl (fun r _ => (ht r).2)]
  show -(Ideal.div _ (Ideal.ofBits .f32 0x45800000#32)) = Ideal.div _ (Ideal.ofBits .f32 0x45800000#32)
  rw [ofBits_4096]
  exact neg_div_sum t 4096 (by norm_num)

theorem ref_eq (x0 : FVec Ideal S4096x32000 .f32) (x1 : IVec S4096 32) (x2 : FVec Ideal S4096x1024 .f32)
    (hok : Cert.Spec.Ok x0 (fun r => x1 (ix1 r)) x2) :
    val_main_v34 (F := Ideal) x0 x1 x2 = fun _ => Cert.Spec.total x0 (fun r => x1 (ix1 r)) x2 := by
  funext i
  rw [val_main_v34_apply, ce_half x0 x1 hok.finX hok.labLt i, hinge_half x2 i, Ideal.addf_def]
  unfold Cert.Spec.total
  rfl

end Cert.ReferenceIdeal.RefValue

end
-- ==== Proof.lean ====
import proofs.«431482_j82446192214711_2_alg».proof.Defs
import proofs.«431482_j82446192214711_2_alg».proof.Proof.Gen.Kernel
import proofs.«431482_j82446192214711_2_alg».proof.Proof.Gen.KernelIdeal
import proofs.«431482_j82446192214711_2_alg».proof.Proof.Gen.ReferenceIdeal
import proofs.«431482_j82446192214711_2_alg».proof.Proof.Gen.Pre_finite_inputs
import proofs.«431482_j82446192214711_2_alg».proof.Proof.Launch
import proofs.«431482_j82446192214711_2_alg».proof.Proof.Bits.Launch
import proofs.«431482_j82446192214711_2_alg».proof.Proof.KHost
import proofs.«431482_j82446192214711_2_alg».proof.Proof.PreOk
import proofs.«431482_j82446192214711_2_alg».proof.Proof.RefRunHand
import proofs.«431482_j82446192214711_2_alg».proof.Proof.RefValue

/-! Over the extended reals, for real logits and features and labels that are columns, the tiled kernel (an online
    log-sum-exp with a compare-and-sum pick; Gram tiles reduced to row sums with the diagonal skipped) and the reference
    (log-softmax gathered at the label; the whole hinge matrix times one minus the identity) both compute
    `Cert.Spec.total` of the arguments. -/

noncomputable section

namespace Cert.Proof

open Idealize.ShloMosaic Idealize.ShloMosaic.TcCoe Idealize.SL.Sem Idealize.ShloMosaic.ValueIdx

theorem frame_p : Cert.frame_Kernel := fun m ρ _ => Cert.Kernel.Hand.frame m ρ

theorem frame_pi : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2) (Cert.ReferenceIdeal.RunHand.run (F := Ideal) m ρ)

theorem preserves : Cert.preserves_Kernel_KernelIdeal := trivial

theorem algebraic : Cert.algebraic_KernelIdeal_ReferenceIdeal := by
  intro m ρ m' ρ' hpre hagree
  have hok := fun c => Cert.Pre_finite_inputs.Hand.ok_of_pre _ _ _ (hpre c)
  refine ⟨fun c => fun _ => Cert.Spec.total (m ((c.tc : Thread Cert.KernelIdeal.nD Cert.KernelIdeal.τ).loc Cert.KernelIdeal.main_arg0))
      (fun r => (m ((c.tc : Thread Cert.KernelIdeal.nD Cert.KernelIdeal.τ).loc Cert.KernelIdeal.main_arg1) : Cert.KernelIdeal.S4096.Idx → BitVec 32) (ix1 r))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Hand.result_eq m c (hok c)), (h c).2⟩)
      (Cert.KernelIdeal.Hand.run_result m ρ)
  · refine (θ_run Cert.ReferenceIdeal.defs _ _).mono (fun _ h c => ⟨(h c).1.trans ?_, (h c).2⟩)
      (Cert.ReferenceIdeal.RunHand.run (F := Ideal) m' ρ')
    rw [(hagree c).1, (hagree c).2.1, (hagree c).2.2]
    exact Cert.ReferenceIdeal.RefValue.ref_eq _ _ _ (hok c)

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
